-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x2 : Shape := ⟨3, ![4096, 26, 2]⟩
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S4096x26x2 : S_.BroadcastsInDim S4096x26x2 (![] : Fin 0 → Fin S4096x26x2.rank)
  reducesTo_S4096x26x2_S_d0_1_2 : S4096x26x2.ReducesTo [0, 1, 2] S_

variable [Facts]

def fn {F : FTy → Type} [FloatOps F] (main_arg0 : IVec S4096x26x2 32) (main_arg1 : FVec F S1000000x32 .f32) : IVec S_ 1 :=
  let main_v0 : FVec F S1000000x32 .f32 := Host.absf main_arg1
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_c_0 : IVec S_ 32 := constantI S_ 32 0#32
  let main_v4 : IVec S4096x26x2 32 := broadcastInDim S4096x26x2 ![] bcast_S_S4096x26x2 main_c_0
  let main_v5 : IVec S4096x26x2 1 := cmpi .sge main_arg0 main_v4
  let main_c_1 : IVec S_ 1 := constantI S_ 1 1#1
  let main_v6 : IVec S_ 1 := (fun x v => Host.reduce IntOp.andi x v reducesTo_S4096x26x2_S_d0_1_2 h_S_) main_v5 main_c_1
  let main_v7 : IVec S_ 1 := andi main_v3 main_v6
  let main_c_2 : IVec S_ 32 := constantI S_ 32 1000000#32
  let main_v8 : IVec S4096x26x2 32 := broadcastInDim S4096x26x2 ![] bcast_S_S4096x26x2 main_c_2
  let main_v9 : IVec S4096x26x2 1 := cmpi .slt main_arg0 main_v8
  let main_c_3 : IVec S_ 1 := constantI S_ 1 1#1
  let main_v10 : IVec S_ 1 := (fun x v => Host.reduce IntOp.andi x v reducesTo_S4096x26x2_S_d0_1_2 h_S_) main_v9 main_c_3
  let main_v11 : IVec S_ 1 := andi main_v7 main_v10
  main_v11
-- ==== Kernel.lean ====
abbrev S4096x26x2 : Shape := ⟨3, ![4096, 26, 2]⟩
abbrev S1000000x32 : Shape := ⟨2, ![1000000, 32]⟩
abbrev S212992 : Shape := ⟨1, ![212992]⟩
abbrev S53248 : Shape := ⟨1, ![53248]⟩
abbrev S53248x32 : Shape := ⟨2, ![53248, 32]⟩
abbrev S8x32 : Shape := ⟨2, ![8, 32]⟩
abbrev S8 : Shape := ⟨1, ![8]⟩
abbrev S1 : Shape := ⟨1, ![1]⟩
abbrev S_ : Shape := ⟨0, ![]⟩
abbrev S1x32 : Shape := ⟨2, ![1, 32]⟩
abbrev S212992x32 : Shape := ⟨2, ![212992, 32]⟩
abbrev S4096x26x2x32 : Shape := ⟨4, ![4096, 26, 2, 32]⟩

abbrev nBuf : Space → Nat
  | .hbm => 9
  | .vmem => 12
  | .smem => 4
  | _ => 0

abbrev bufTy : (tb : Table) → Fin (tcTables nBuf tb) → BufTy
  | .hbm, ⟨0, _⟩ => ⟨S4096x26x2, .i32⟩
  | .hbm, ⟨1, _⟩ => ⟨S1000000x32, .f32⟩
  | .hbm, ⟨2, _⟩ => ⟨S212992, .i32⟩
  | .hbm, ⟨3, _⟩ => ⟨S53248x32, .f32⟩
  | .hbm, ⟨4, _⟩ => ⟨S53248x32, .f32⟩
  | .hbm, ⟨5, _⟩ => ⟨S53248x32, .f32⟩
  | .hbm, ⟨6, _⟩ => ⟨S53248x32, .f32⟩
  | .hbm, ⟨7, _⟩ => ⟨S212992x32, .f32⟩
  | .hbm, ⟨8, _⟩ => ⟨S4096x26x2x32, .f32⟩
  | .local _ .vmem, ⟨0, _⟩ => ⟨S8x32, .f32⟩
  | .local _ .vmem, ⟨1, _⟩ => ⟨S8x32, .f32⟩
  | .local _ .vmem, ⟨2, _⟩ => ⟨S8x32, .f32⟩
  | .local _ .vmem, ⟨3, _⟩ => ⟨S8x32, .f32⟩
  | .local _ .vmem, ⟨4, _⟩ => ⟨S8x32, .f32⟩
  | .local _ .vmem, ⟨5, _⟩ => ⟨S8x32, .f32⟩
  | .local _ .vmem, ⟨6, _⟩ => ⟨S8x32, .f32⟩
  | .local _ .vmem, ⟨7, _⟩ => ⟨S8x32, .f32⟩
  | .local _ .vmem, ⟨8, _⟩ => ⟨S8x32, .f32⟩
  | .local _ .vmem, ⟨9, _⟩ => ⟨S8x32, .f32⟩
  | .local _ .vmem, ⟨10, _⟩ => ⟨S8x32, .f32⟩
  | .local _ .vmem, ⟨11, _⟩ => ⟨S8x32, .f32⟩
  | .local _ .smem, ⟨0, _⟩ => ⟨S53248, .i32⟩
  | .local _ .smem, ⟨1, _⟩ => ⟨S53248, .i32⟩
  | .local _ .smem, ⟨2, _⟩ => ⟨S53248, .i32⟩
  | .local _ .smem, ⟨3, _⟩ => ⟨S53248, .i32⟩
  | _, _ => ⟨S4096x26x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v2 : Ref sig .tc := ⟨.hbm, 3, rfl⟩
abbrev main_v4 : Ref sig .tc := ⟨.hbm, 4, rfl⟩
abbrev main_v6 : Ref sig .tc := ⟨.hbm, 5, rfl⟩
abbrev main_v8 : Ref sig .tc := ⟨.hbm, 6, rfl⟩
abbrev main_v9 : Ref sig .tc := ⟨.hbm, 7, rfl⟩
abbrev main_v10 : Ref sig .tc := ⟨.hbm, 8, rfl⟩
abbrev main_v1 : Ref sig .tc := ⟨.smem, 0, rfl⟩
abbrev main_v3 : Ref sig .tc := ⟨.smem, 1, rfl⟩
abbrev main_v5 : Ref sig .tc := ⟨.smem, 2, rfl⟩
abbrev main_v7 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_scratch0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_scratch0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_scratch0 : Ref sig .tc := ⟨.vmem, 11, rfl⟩
abbrev cc0_sem0_0 : DmaSem sig := 0
abbrev cc0_sem0_1 : DmaSem sig := 1
abbrev cc1_sem0_0 : DmaSem sig := 10
abbrev cc1_sem0_1 : DmaSem sig := 11
abbrev cc2_sem0_0 : DmaSem sig := 20
abbrev cc2_sem0_1 : DmaSem sig := 21
abbrev cc3_sem0_0 : DmaSem sig := 30
abbrev cc3_sem0_1 : DmaSem sig := 31

abbrev nD : Nat := 1
abbrev τ : Topo := Topo.v7x

variable {F : FTy → Type} [FloatOps F]

abbrev grid0 : Pipeline.Grid := ⟨1, ![6656], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k0_off4 (v10 : BitVec 32) : Fin 2 → Nat :=
  let c0_i32_7 : BitVec 32 := 0#32
  ![v10.toNat, 0]

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k0_off6 (v17 : BitVec 32) : Fin 2 → Nat :=
  let c0_i32_11 : BitVec 32 := 0#32
  ![v17.toNat, 0]

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k0_off8 (v24 : BitVec 32) : Fin 2 → Nat :=
  let c0_i32_15 : BitVec 32 := 0#32
  ![v24.toNat, 0]

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k0_off10 (v31 : BitVec 32) : Fin 2 → Nat :=
  let c0_i32_19 : BitVec 32 := 0#32
  ![v31.toNat, 0]

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k0_off12 (v38 : BitVec 32) : Fin 2 → Nat :=
  let c0_i32_23 : BitVec 32 := 0#32
  ![v38.toNat, 0]

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k0_off14 (v45 : BitVec 32) : Fin 2 → Nat :=
  let c0_i32_27 : BitVec 32 := 0#32
  ![v45.toNat, 0]

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k0_off16 (v52 : BitVec 32) : Fin 2 → Nat :=
  let c0_i32_31 : BitVec 32 := 0#32
  ![v52.toNat, 0]

def k0_chk8 (v52 : BitVec 32) : Prop :=
  (∀ a, (k0_off16 v52) a + S1x32.size a ≤ S1000000x32.size a)
instance k0_chk8.dec : ∀ (v52 : BitVec 32), Decidable (k0_chk8 v52) := fun v52 => decidable_of_iff' _ (Iff.of_eq (k0_chk8.eq_1 v52))
theorem k0_off16_inb : ∀ (v52 : BitVec 32) (k0_hw8 : k0_chk8 v52), ∀ a, (k0_off16 v52) a + S1x32.size a ≤ S1000000x32.size a := fun v52 k0_hw8 => k0_hw8

def k0_off17 (v3 : BitVec 32) : Fin 2 → Nat :=
  let c0_i32_35 : BitVec 32 := 0#32
  ![v3.toNat, 0]

def k0_chk1 (v3 : BitVec 32) : Prop :=
  (∀ a, (k0_off2 v3) a + S1x32.size a ≤ S1000000x32.size a) ∧
  (∀ a, (k0_off17 v3) a + S1x32.size a ≤ S1000000x32.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x32.size a ≤ S1000000x32.size a := fun v3 k0_hw1 => k0_hw1.1
theorem k0_off17_inb : ∀ (v3 : BitVec 32) (k0_hw1 : k0_chk1 v3), ∀ a, (k0_off17 v3) a + S1x32.size a ≤ S1000000x32.size a := fun v3 k0_hw1 => k0_hw1.2

def k0_off18 (v10 : BitVec 32) : Fin 2 → Nat :=
  let c0_i32_39 : BitVec 32 := 0#32
  ![v10.toNat, 0]

def k0_chk2 (v10 : BitVec 32) : Prop :=
  (∀ a, (k0_off4 v10) a + S1x32.size a ≤ S1000000x32.size a) ∧
  (∀ a, (k0_off18 v10) a + S1x32.size a ≤ S1000000x32.size a)
instance k0_chk2.dec : ∀ (v10 : BitVec 32), Decidable (k0_chk2 v10) := fun v10 => decidable_of_iff' _ (Iff.of_eq (k0_chk2.eq_1 v10))
theorem k0_off4_inb : ∀ (v10 : BitVec 32) (k0_hw2 : k0_chk2 v10), ∀ a, (k0_off4 v10) a + S1x32.size a ≤ S1000000x32.size a := fun v10 k0_hw2 => k0_hw2.1
theorem k0_off18_inb : ∀ (v10 : BitVec 32) (k0_hw2 : k0_chk2 v10), ∀ a, (k0_off18 v10) a + S1x32.size a ≤ S1000000x32.size a := fun v10 k0_hw2 => k0_hw2.2

def k0_off19 (v17 : BitVec 32) : Fin 2 → Nat :=
  let c0_i32_43 : BitVec 32 := 0#32
  ![v17.toNat, 0]

def k0_chk3 (v17 : BitVec 32) : Prop :=
  (∀ a, (k0_off6 v17) a + S1x32.size a ≤ S1000000x32.size a) ∧
  (∀ a, (k0_off19 v17) a + S1x32.size a ≤ S1000000x32.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x32.size a ≤ S1000000x32.size a := fun v17 k0_hw3 => k0_hw3.1
theorem k0_off19_inb : ∀ (v17 : BitVec 32) (k0_hw3 : k0_chk3 v17), ∀ a, (k0_off19 v17) a + S1x32.size a ≤ S1000000x32.size a := fun v17 k0_hw3 => k0_hw3.2

def k0_off20 (v24 : BitVec 32) : Fin 2 → Nat :=
  let c0_i32_47 : BitVec 32 := 0#32
  ![v24.toNat, 0]

def k0_chk4 (v24 : BitVec 32) : Prop :=
  (∀ a, (k0_off8 v24) a + S1x32.size a ≤ S1000000x32.size a) ∧
  (∀ a, (k0_off20 v24) a + S1x32.size a ≤ S1000000x32.size a)
instance k0_chk4.dec : ∀ (v24 : BitVec 32), Decidable (k0_chk4 v24) := fun v24 => decidable_of_iff' _ (Iff.of_eq (k0_chk4.eq_1 v24))
theorem k0_off8_inb : ∀ (v24 : BitVec 32) (k0_hw4 : k0_chk4 v24), ∀ a, (k0_off8 v24) a + S1x32.size a ≤ S1000000x32.size a := fun v24 k0_hw4 => k0_hw4.1
theorem k0_off20_inb : ∀ (v24 : BitVec 32) (k0_hw4 : k0_chk4 v24), ∀ a, (k0_off20 v24) a + S1x32.size a ≤ S1000000x32.size a := fun v24 k0_hw4 => k0_hw4.2

def k0_off21 (v31 : BitVec 32) : Fin 2 → Nat :=
  let c0_i32_51 : BitVec 32 := 0#32
  ![v31.toNat, 0]

def k0_chk5 (v31 : BitVec 32) : Prop :=
  (∀ a, (k0_off10 v31) a + S1x32.size a ≤ S1000000x32.size a) ∧
  (∀ a, (k0_off21 v31) a + S1x32.size a ≤ S1000000x32.size a)
instance k0_chk5.dec : ∀ (v31 : BitVec 32), Decidable (k0_chk5 v31) := fun v31 => decidable_of_iff' _ (Iff.of_eq (k0_chk5.eq_1 v31))
theorem k0_off10_inb : ∀ (v31 : BitVec 32) (k0_hw5 : k0_chk5 v31), ∀ a, (k0_off10 v31) a + S1x32.size a ≤ S1000000x32.size a := fun v31 k0_hw5 => k0_hw5.1
theorem k0_off21_inb : ∀ (v31 : BitVec 32) (k0_hw5 : k0_chk5 v31), ∀ a, (k0_off21 v31) a + S1x32.size a ≤ S1000000x32.size a := fun v31 k0_hw5 => k0_hw5.2

def k0_off22 (v38 : BitVec 32) : Fin 2 → Nat :=
  let c0_i32_55 : BitVec 32 := 0#32
  ![v38.toNat, 0]

def k0_chk6 (v38 : BitVec 32) : Prop :=
  (∀ a, (k0_off12 v38) a + S1x32.size a ≤ S1000000x32.size a) ∧
  (∀ a, (k0_off22 v38) a + S1x32.size a ≤ S1000000x32.size a)
instance k0_chk6.dec : ∀ (v38 : BitVec 32), Decidable (k0_chk6 v38) := fun v38 => decidable_of_iff' _ (Iff.of_eq (k0_chk6.eq_1 v38))
theorem k0_off12_inb : ∀ (v38 : BitVec 32) (k0_hw6 : k0_chk6 v38), ∀ a, (k0_off12 v38) a + S1x32.size a ≤ S1000000x32.size a := fun v38 k0_hw6 => k0_hw6.1
theorem k0_off22_inb : ∀ (v38 : BitVec 32) (k0_hw6 : k0_chk6 v38), ∀ a, (k0_off22 v38) a + S1x32.size a ≤ S1000000x32.size a := fun v38 k0_hw6 => k0_hw6.2

def k0_off23 (v45 : BitVec 32) : Fin 2 → Nat :=
  let c0_i32_59 : BitVec 32 := 0#32
  ![v45.toNat, 0]

def k0_chk7 (v45 : BitVec 32) : Prop :=
  (∀ a, (k0_off14 v45) a + S1x32.size a ≤ S1000000x32.size a) ∧
  (∀ a, (k0_off23 v45) a + S1x32.size a ≤ S1000000x32.size a)
instance k0_chk7.dec : ∀ (v45 : BitVec 32), Decidable (k0_chk7 v45) := fun v45 => decidable_of_iff' _ (Iff.of_eq (k0_chk7.eq_1 v45))
theorem k0_off14_inb : ∀ (v45 : BitVec 32) (k0_hw7 : k0_chk7 v45), ∀ a, (k0_off14 v45) a + S1x32.size a ≤ S1000000x32.size a := fun v45 k0_hw7 => k0_hw7.1
theorem k0_off23_inb : ∀ (v45 : BitVec 32) (k0_hw7 : k0_chk7 v45), ∀ a, (k0_off23 v45) a + S1x32.size a ≤ S1000000x32.size a := fun v45 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![6656], ![false]⟩

abbrev pre1 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k1_off4 (v10 : BitVec 32) : Fin 2 → Nat :=
  let c0_i32_7 : BitVec 32 := 0#32
  ![v10.toNat, 0]

def k1_off5 (i : grid1.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k1_off6 (v17 : BitVec 32) : Fin 2 → Nat :=
  let c0_i32_11 : BitVec 32 := 0#32
  ![v17.toNat, 0]

def k1_off7 (i : grid1.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k1_off8 (v24 : BitVec 32) : Fin 2 → Nat :=
  let c0_i32_15 : BitVec 32 := 0#32
  ![v24.toNat, 0]

def k1_off9 (i : grid1.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k1_off10 (v31 : BitVec 32) : Fin 2 → Nat :=
  let c0_i32_19 : BitVec 32 := 0#32
  ![v31.toNat, 0]

def k1_off11 (i : grid1.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k1_off12 (v38 : BitVec 32) : Fin 2 → Nat :=
  let c0_i32_23 : BitVec 32 := 0#32
  ![v38.toNat, 0]

def k1_off13 (i : grid1.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k1_off14 (v45 : BitVec 32) : Fin 2 → Nat :=
  let c0_i32_27 : BitVec 32 := 0#32
  ![v45.toNat, 0]

def k1_off15 (i : grid1.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k1_off16 (v52 : BitVec 32) : Fin 2 → Nat :=
  let c0_i32_31 : BitVec 32 := 0#32
  ![v52.toNat, 0]

def k1_chk8 (v52 : BitVec 32) : Prop :=
  (∀ a, (k1_off16 v52) a + S1x32.size a ≤ S1000000x32.size a)
instance k1_chk8.dec : ∀ (v52 : BitVec 32), Decidable (k1_chk8 v52) := fun v52 => decidable_of_iff' _ (Iff.of_eq (k1_chk8.eq_1 v52))
theorem k1_off16_inb : ∀ (v52 : BitVec 32) (k1_hw8 : k1_chk8 v52), ∀ a, (k1_off16 v52) a + S1x32.size a ≤ S1000000x32.size a := fun v52 k1_hw8 => k1_hw8

def k1_off17 (v3 : BitVec 32) : Fin 2 → Nat :=
  let c0_i32_35 : BitVec 32 := 0#32
  ![v3.toNat, 0]

def k1_chk1 (v3 : BitVec 32) : Prop :=
  (∀ a, (k1_off2 v3) a + S1x32.size a ≤ S1000000x32.size a) ∧
  (∀ a, (k1_off17 v3) a + S1x32.size a ≤ S1000000x32.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x32.size a ≤ S1000000x32.size a := fun v3 k1_hw1 => k1_hw1.1
theorem k1_off17_inb : ∀ (v3 : BitVec 32) (k1_hw1 : k1_chk1 v3), ∀ a, (k1_off17 v3) a + S1x32.size a ≤ S1000000x32.size a := fun v3 k1_hw1 => k1_hw1.2

def k1_off18 (v10 : BitVec 32) : Fin 2 → Nat :=
  let c0_i32_39 : BitVec 32 := 0#32
  ![v10.toNat, 0]

def k1_chk2 (v10 : BitVec 32) : Prop :=
  (∀ a, (k1_off4 v10) a + S1x32.size a ≤ S1000000x32.size a) ∧
  (∀ a, (k1_off18 v10) a + S1x32.size a ≤ S1000000x32.size a)
instance k1_chk2.dec : ∀ (v10 : BitVec 32), Decidable (k1_chk2 v10) := fun v10 => decidable_of_iff' _ (Iff.of_eq (k1_chk2.eq_1 v10))
theorem k1_off4_inb : ∀ (v10 : BitVec 32) (k1_hw2 : k1_chk2 v10), ∀ a, (k1_off4 v10) a + S1x32.size a ≤ S1000000x32.size a := fun v10 k1_hw2 => k1_hw2.1
theorem k1_off18_inb : ∀ (v10 : BitVec 32) (k1_hw2 : k1_chk2 v10), ∀ a, (k1_off18 v10) a + S1x32.size a ≤ S1000000x32.size a := fun v10 k1_hw2 => k1_hw2.2

def k1_off19 (v17 : BitVec 32) : Fin 2 → Nat :=
  let c0_i32_43 : BitVec 32 := 0#32
  ![v17.toNat, 0]

def k1_chk3 (v17 : BitVec 32) : Prop :=
  (∀ a, (k1_off6 v17) a + S1x32.size a ≤ S1000000x32.size a) ∧
  (∀ a, (k1_off19 v17) a + S1x32.size a ≤ S1000000x32.size a)
instance k1_chk3.dec : ∀ (v17 : BitVec 32), Decidable (k1_chk3 v17) := fun v17 => decidable_of_iff' _ (Iff.of_eq (k1_chk3.eq_1 v17))
theorem k1_off6_inb : ∀ (v17 : BitVec 32) (k1_hw3 : k1_chk3 v17), ∀ a, (k1_off6 v17) a + S1x32.size a ≤ S1000000x32.size a := fun v17 k1_hw3 => k1_hw3.1
theorem k1_off19_inb : ∀ (v17 : BitVec 32) (k1_hw3 : k1_chk3 v17), ∀ a, (k1_off19 v17) a + S1x32.size a ≤ S1000000x32.size a := fun v17 k1_hw3 => k1_hw3.2

def k1_off20 (v24 : BitVec 32) : Fin 2 → Nat :=
  let c0_i32_47 : BitVec 32 := 0#32
  ![v24.toNat, 0]

def k1_chk4 (v24 : BitVec 32) : Prop :=
  (∀ a, (k1_off8 v24) a + S1x32.size a ≤ S1000000x32.size a) ∧
  (∀ a, (k1_off20 v24) a + S1x32.size a ≤ S1000000x32.size a)
instance k1_chk4.dec : ∀ (v24 : BitVec 32), Decidable (k1_chk4 v24) := fun v24 => decidable_of_iff' _ (Iff.of_eq (k1_chk4.eq_1 v24))
theorem k1_off8_inb : ∀ (v24 : BitVec 32) (k1_hw4 : k1_chk4 v24), ∀ a, (k1_off8 v24) a + S1x32.size a ≤ S1000000x32.size a := fun v24 k1_hw4 => k1_hw4.1
theorem k1_off20_inb : ∀ (v24 : BitVec 32) (k1_hw4 : k1_chk4 v24), ∀ a, (k1_off20 v24) a + S1x32.size a ≤ S1000000x32.size a := fun v24 k1_hw4 => k1_hw4.2

def k1_off21 (v31 : BitVec 32) : Fin 2 → Nat :=
  let c0_i32_51 : BitVec 32 := 0#32
  ![v31.toNat, 0]

def k1_chk5 (v31 : BitVec 32) : Prop :=
  (∀ a, (k1_off10 v31) a + S1x32.size a ≤ S1000000x32.size a) ∧
  (∀ a, (k1_off21 v31) a + S1x32.size a ≤ S1000000x32.size a)
instance k1_chk5.dec : ∀ (v31 : BitVec 32), Decidable (k1_chk5 v31) := fun v31 => decidable_of_iff' _ (Iff.of_eq (k1_chk5.eq_1 v31))
theorem k1_off10_inb : ∀ (v31 : BitVec 32) (k1_hw5 : k1_chk5 v31), ∀ a, (k1_off10 v31) a + S1x32.size a ≤ S1000000x32.size a := fun v31 k1_hw5 => k1_hw5.1
theorem k1_off21_inb : ∀ (v31 : BitVec 32) (k1_hw5 : k1_chk5 v31), ∀ a, (k1_off21 v31) a + S1x32.size a ≤ S1000000x32.size a := fun v31 k1_hw5 => k1_hw5.2

def k1_off22 (v38 : BitVec 32) : Fin 2 → Nat :=
  let c0_i32_55 : BitVec 32 := 0#32
  ![v38.toNat, 0]

def k1_chk6 (v38 : BitVec 32) : Prop :=
  (∀ a, (k1_off12 v38) a + S1x32.size a ≤ S1000000x32.size a) ∧
  (∀ a, (k1_off22 v38) a + S1x32.size a ≤ S1000000x32.size a)
instance k1_chk6.dec : ∀ (v38 : BitVec 32), Decidable (k1_chk6 v38) := fun v38 => decidable_of_iff' _ (Iff.of_eq (k1_chk6.eq_1 v38))
theorem k1_off12_inb : ∀ (v38 : BitVec 32) (k1_hw6 : k1_chk6 v38), ∀ a, (k1_off12 v38) a + S1x32.size a ≤ S1000000x32.size a := fun v38 k1_hw6 => k1_hw6.1
theorem k1_off22_inb : ∀ (v38 : BitVec 32) (k1_hw6 : k1_chk6 v38), ∀ a, (k1_off22 v38) a + S1x32.size a ≤ S1000000x32.size a := fun v38 k1_hw6 => k1_hw6.2

def k1_off23 (v45 : BitVec 32) : Fin 2 → Nat :=
  let c0_i32_59 : BitVec 32 := 0#32
  ![v45.toNat, 0]

def k1_chk7 (v45 : BitVec 32) : Prop :=
  (∀ a, (k1_off14 v45) a + S1x32.size a ≤ S1000000x32.size a) ∧
  (∀ a, (k1_off23 v45) a + S1x32.size a ≤ S1000000x32.size a)
instance k1_chk7.dec : ∀ (v45 : BitVec 32), Decidable (k1_chk7 v45) := fun v45 => decidable_of_iff' _ (Iff.of_eq (k1_chk7.eq_1 v45))
theorem k1_off14_inb : ∀ (v45 : BitVec 32) (k1_hw7 : k1_chk7 v45), ∀ a, (k1_off14 v45) a + S1x32.size a ≤ S1000000x32.size a := fun v45 k1_hw7 => k1_hw7.1
theorem k1_off23_inb : ∀ (v45 : BitVec 32) (k1_hw7 : k1_chk7 v45), ∀ a, (k1_off23 v45) a + S1x32.size a ≤ S1000000x32.size a := fun v45 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![6656], ![false]⟩

abbrev pre2 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k2_off4 (v10 : BitVec 32) : Fin 2 → Nat :=
  let c0_i32_7 : BitVec 32 := 0#32
  ![v10.toNat, 0]

def k2_off5 (i : grid2.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k2_off6 (v17 : BitVec 32) : Fin 2 → Nat :=
  let c0_i32_11 : BitVec 32 := 0#32
  ![v17.toNat, 0]

def k2_off7 (i : grid2.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k2_off8 (v24 : BitVec 32) : Fin 2 → Nat :=
  let c0_i32_15 : BitVec 32 := 0#32
  ![v24.toNat, 0]

def k2_off9 (i : grid2.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k2_off10 (v31 : BitVec 32) : Fin 2 → Nat :=
  let c0_i32_19 : BitVec 32 := 0#32
  ![v31.toNat, 0]

def k2_off11 (i : grid2.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k2_off12 (v38 : BitVec 32) : Fin 2 → Nat :=
  let c0_i32_23 : BitVec 32 := 0#32
  ![v38.toNat, 0]

def k2_off13 (i : grid2.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k2_off14 (v45 : BitVec 32) : Fin 2 → Nat :=
  let c0_i32_27 : BitVec 32 := 0#32
  ![v45.toNat, 0]

def k2_off15 (i : grid2.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k2_off16 (v52 : BitVec 32) : Fin 2 → Nat :=
  let c0_i32_31 : BitVec 32 := 0#32
  ![v52.toNat, 0]

def k2_chk8 (v52 : BitVec 32) : Prop :=
  (∀ a, (k2_off16 v52) a + S1x32.size a ≤ S1000000x32.size a)
instance k2_chk8.dec : ∀ (v52 : BitVec 32), Decidable (k2_chk8 v52) := fun v52 => decidable_of_iff' _ (Iff.of_eq (k2_chk8.eq_1 v52))
theorem k2_off16_inb : ∀ (v52 : BitVec 32) (k2_hw8 : k2_chk8 v52), ∀ a, (k2_off16 v52) a + S1x32.size a ≤ S1000000x32.size a := fun v52 k2_hw8 => k2_hw8

def k2_off17 (v3 : BitVec 32) : Fin 2 → Nat :=
  let c0_i32_35 : BitVec 32 := 0#32
  ![v3.toNat, 0]

def k2_chk1 (v3 : BitVec 32) : Prop :=
  (∀ a, (k2_off2 v3) a + S1x32.size a ≤ S1000000x32.size a) ∧
  (∀ a, (k2_off17 v3) a + S1x32.size a ≤ S1000000x32.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x32.size a ≤ S1000000x32.size a := fun v3 k2_hw1 => k2_hw1.1
theorem k2_off17_inb : ∀ (v3 : BitVec 32) (k2_hw1 : k2_chk1 v3), ∀ a, (k2_off17 v3) a + S1x32.size a ≤ S1000000x32.size a := fun v3 k2_hw1 => k2_hw1.2

def k2_off18 (v10 : BitVec 32) : Fin 2 → Nat :=
  let c0_i32_39 : BitVec 32 := 0#32
  ![v10.toNat, 0]

def k2_chk2 (v10 : BitVec 32) : Prop :=
  (∀ a, (k2_off4 v10) a + S1x32.size a ≤ S1000000x32.size a) ∧
  (∀ a, (k2_off18 v10) a + S1x32.size a ≤ S1000000x32.size a)
instance k2_chk2.dec : ∀ (v10 : BitVec 32), Decidable (k2_chk2 v10) := fun v10 => decidable_of_iff' _ (Iff.of_eq (k2_chk2.eq_1 v10))
theorem k2_off4_inb : ∀ (v10 : BitVec 32) (k2_hw2 : k2_chk2 v10), ∀ a, (k2_off4 v10) a + S1x32.size a ≤ S1000000x32.size a := fun v10 k2_hw2 => k2_hw2.1
theorem k2_off18_inb : ∀ (v10 : BitVec 32) (k2_hw2 : k2_chk2 v10), ∀ a, (k2_off18 v10) a + S1x32.size a ≤ S1000000x32.size a := fun v10 k2_hw2 => k2_hw2.2

def k2_off19 (v17 : BitVec 32) : Fin 2 → Nat :=
  let c0_i32_43 : BitVec 32 := 0#32
  ![v17.toNat, 0]

def k2_chk3 (v17 : BitVec 32) : Prop :=
  (∀ a, (k2_off6 v17) a + S1x32.size a ≤ S1000000x32.size a) ∧
  (∀ a, (k2_off19 v17) a + S1x32.size a ≤ S1000000x32.size a)
instance k2_chk3.dec : ∀ (v17 : BitVec 32), Decidable (k2_chk3 v17) := fun v17 => decidable_of_iff' _ (Iff.of_eq (k2_chk3.eq_1 v17))
theorem k2_off6_inb : ∀ (v17 : BitVec 32) (k2_hw3 : k2_chk3 v17), ∀ a, (k2_off6 v17) a + S1x32.size a ≤ S1000000x32.size a := fun v17 k2_hw3 => k2_hw3.1
theorem k2_off19_inb : ∀ (v17 : BitVec 32) (k2_hw3 : k2_chk3 v17), ∀ a, (k2_off19 v17) a + S1x32.size a ≤ S1000000x32.size a := fun v17 k2_hw3 => k2_hw3.2

def k2_off20 (v24 : BitVec 32) : Fin 2 → Nat :=
  let c0_i32_47 : BitVec 32 := 0#32
  ![v24.toNat, 0]

def k2_chk4 (v24 : BitVec 32) : Prop :=
  (∀ a, (k2_off8 v24) a + S1x32.size a ≤ S1000000x32.size a) ∧
  (∀ a, (k2_off20 v24) a + S1x32.size a ≤ S1000000x32.size a)
instance k2_chk4.dec : ∀ (v24 : BitVec 32), Decidable (k2_chk4 v24) := fun v24 => decidable_of_iff' _ (Iff.of_eq (k2_chk4.eq_1 v24))
theorem k2_off8_inb : ∀ (v24 : BitVec 32) (k2_hw4 : k2_chk4 v24), ∀ a, (k2_off8 v24) a + S1x32.size a ≤ S1000000x32.size a := fun v24 k2_hw4 => k2_hw4.1
theorem k2_off20_inb : ∀ (v24 : BitVec 32) (k2_hw4 : k2_chk4 v24), ∀ a, (k2_off20 v24) a + S1x32.size a ≤ S1000000x32.size a := fun v24 k2_hw4 => k2_hw4.2

def k2_off21 (v31 : BitVec 32) : Fin 2 → Nat :=
  let c0_i32_51 : BitVec 32 := 0#32
  ![v31.toNat, 0]

def k2_chk5 (v31 : BitVec 32) : Prop :=
  (∀ a, (k2_off10 v31) a + S1x32.size a ≤ S1000000x32.size a) ∧
  (∀ a, (k2_off21 v31) a + S1x32.size a ≤ S1000000x32.size a)
instance k2_chk5.dec : ∀ (v31 : BitVec 32), Decidable (k2_chk5 v31) := fun v31 => decidable_of_iff' _ (Iff.of_eq (k2_chk5.eq_1 v31))
theorem k2_off10_inb : ∀ (v31 : BitVec 32) (k2_hw5 : k2_chk5 v31), ∀ a, (k2_off10 v31) a + S1x32.size a ≤ S1000000x32.size a := fun v31 k2_hw5 => k2_hw5.1
theorem k2_off21_inb : ∀ (v31 : BitVec 32) (k2_hw5 : k2_chk5 v31), ∀ a, (k2_off21 v31) a + S1x32.size a ≤ S1000000x32.size a := fun v31 k2_hw5 => k2_hw5.2

def k2_off22 (v38 : BitVec 32) : Fin 2 → Nat :=
  let c0_i32_55 : BitVec 32 := 0#32
  ![v38.toNat, 0]

def k2_chk6 (v38 : BitVec 32) : Prop :=
  (∀ a, (k2_off12 v38) a + S1x32.size a ≤ S1000000x32.size a) ∧
  (∀ a, (k2_off22 v38) a + S1x32.size a ≤ S1000000x32.size a)
instance k2_chk6.dec : ∀ (v38 : BitVec 32), Decidable (k2_chk6 v38) := fun v38 => decidable_of_iff' _ (Iff.of_eq (k2_chk6.eq_1 v38))
theorem k2_off12_inb : ∀ (v38 : BitVec 32) (k2_hw6 : k2_chk6 v38), ∀ a, (k2_off12 v38) a + S1x32.size a ≤ S1000000x32.size a := fun v38 k2_hw6 => k2_hw6.1
theorem k2_off22_inb : ∀ (v38 : BitVec 32) (k2_hw6 : k2_chk6 v38), ∀ a, (k2_off22 v38) a + S1x32.size a ≤ S1000000x32.size a := fun v38 k2_hw6 => k2_hw6.2

def k2_off23 (v45 : BitVec 32) : Fin 2 → Nat :=
  let c0_i32_59 : BitVec 32 := 0#32
  ![v45.toNat, 0]

def k2_chk7 (v45 : BitVec 32) : Prop :=
  (∀ a, (k2_off14 v45) a + S1x32.size a ≤ S1000000x32.size a) ∧
  (∀ a, (k2_off23 v45) a + S1x32.size a ≤ S1000000x32.size a)
instance k2_chk7.dec : ∀ (v45 : BitVec 32), Decidable (k2_chk7 v45) := fun v45 => decidable_of_iff' _ (Iff.of_eq (k2_chk7.eq_1 v45))
theorem k2_off14_inb : ∀ (v45 : BitVec 32) (k2_hw7 : k2_chk7 v45), ∀ a, (k2_off14 v45) a + S1x32.size a ≤ S1000000x32.size a := fun v45 k2_hw7 => k2_hw7.1
theorem k2_off23_inb : ∀ (v45 : BitVec 32) (k2_hw7 : k2_chk7 v45), ∀ a, (k2_off23 v45) a + S1x32.size a ≤ S1000000x32.size a := fun v45 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![6656], ![false]⟩

abbrev pre3 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k3_off4 (v10 : BitVec 32) : Fin 2 → Nat :=
  let c0_i32_7 : BitVec 32 := 0#32
  ![v10.toNat, 0]

def k3_off5 (i : grid3.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k3_off6 (v17 : BitVec 32) : Fin 2 → Nat :=
  let c0_i32_11 : BitVec 32 := 0#32
  ![v17.toNat, 0]

def k3_off7 (i : grid3.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k3_off8 (v24 : BitVec 32) : Fin 2 → Nat :=
  let c0_i32_15 : BitVec 32 := 0#32
  ![v24.toNat, 0]

def k3_off9 (i : grid3.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k3_off10 (v31 : BitVec 32) : Fin 2 → Nat :=
  let c0_i32_19 : BitVec 32 := 0#32
  ![v31.toNat, 0]

def k3_off11 (i : grid3.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k3_off12 (v38 : BitVec 32) : Fin 2 → Nat :=
  let c0_i32_23 : BitVec 32 := 0#32
  ![v38.toNat, 0]

def k3_off13 (i : grid3.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k3_off14 (v45 : BitVec 32) : Fin 2 → Nat :=
  let c0_i32_27 : BitVec 32 := 0#32
  ![v45.toNat, 0]

def k3_off15 (i : grid3.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k3_off16 (v52 : BitVec 32) : Fin 2 → Nat :=
  let c0_i32_31 : BitVec 32 := 0#32
  ![v52.toNat, 0]

def k3_chk8 (v52 : BitVec 32) : Prop :=
  (∀ a, (k3_off16 v52) a + S1x32.size a ≤ S1000000x32.size a)
instance k3_chk8.dec : ∀ (v52 : BitVec 32), Decidable (k3_chk8 v52) := fun v52 => decidable_of_iff' _ (Iff.of_eq (k3_chk8.eq_1 v52))
theorem k3_off16_inb : ∀ (v52 : BitVec 32) (k3_hw8 : k3_chk8 v52), ∀ a, (k3_off16 v52) a + S1x32.size a ≤ S1000000x32.size a := fun v52 k3_hw8 => k3_hw8

def k3_off17 (v3 : BitVec 32) : Fin 2 → Nat :=
  let c0_i32_35 : BitVec 32 := 0#32
  ![v3.toNat, 0]

def k3_chk1 (v3 : BitVec 32) : Prop :=
  (∀ a, (k3_off2 v3) a + S1x32.size a ≤ S1000000x32.size a) ∧
  (∀ a, (k3_off17 v3) a + S1x32.size a ≤ S1000000x32.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x32.size a ≤ S1000000x32.size a := fun v3 k3_hw1 => k3_hw1.1
theorem k3_off17_inb : ∀ (v3 : BitVec 32) (k3_hw1 : k3_chk1 v3), ∀ a, (k3_off17 v3) a + S1x32.size a ≤ S1000000x32.size a := fun v3 k3_hw1 => k3_hw1.2

def k3_off18 (v10 : BitVec 32) : Fin 2 → Nat :=
  let c0_i32_39 : BitVec 32 := 0#32
  ![v10.toNat, 0]

def k3_chk2 (v10 : BitVec 32) : Prop :=
  (∀ a, (k3_off4 v10) a + S1x32.size a ≤ S1000000x32.size a) ∧
  (∀ a, (k3_off18 v10) a + S1x32.size a ≤ S1000000x32.size a)
instance k3_chk2.dec : ∀ (v10 : BitVec 32), Decidable (k3_chk2 v10) := fun v10 => decidable_of_iff' _ (Iff.of_eq (k3_chk2.eq_1 v10))
theorem k3_off4_inb : ∀ (v10 : BitVec 32) (k3_hw2 : k3_chk2 v10), ∀ a, (k3_off4 v10) a + S1x32.size a ≤ S1000000x32.size a := fun v10 k3_hw2 => k3_hw2.1
theorem k3_off18_inb : ∀ (v10 : BitVec 32) (k3_hw2 : k3_chk2 v10), ∀ a, (k3_off18 v10) a + S1x32.size a ≤ S1000000x32.size a := fun v10 k3_hw2 => k3_hw2.2

def k3_off19 (v17 : BitVec 32) : Fin 2 → Nat :=
  let c0_i32_43 : BitVec 32 := 0#32
  ![v17.toNat, 0]

def k3_chk3 (v17 : BitVec 32) : Prop :=
  (∀ a, (k3_off6 v17) a + S1x32.size a ≤ S1000000x32.size a) ∧
  (∀ a, (k3_off19 v17) a + S1x32.size a ≤ S1000000x32.size a)
instance k3_chk3.dec : ∀ (v17 : BitVec 32), Decidable (k3_chk3 v17) := fun v17 => decidable_of_iff' _ (Iff.of_eq (k3_chk3.eq_1 v17))
theorem k3_off6_inb : ∀ (v17 : BitVec 32) (k3_hw3 : k3_chk3 v17), ∀ a, (k3_off6 v17) a + S1x32.size a ≤ S1000000x32.size a := fun v17 k3_hw3 => k3_hw3.1
theorem k3_off19_inb : ∀ (v17 : BitVec 32) (k3_hw3 : k3_chk3 v17), ∀ a, (k3_off19 v17) a + S1x32.size a ≤ S1000000x32.size a := fun v17 k3_hw3 => k3_hw3.2

def k3_off20 (v24 : BitVec 32) : Fin 2 → Nat :=
  let c0_i32_47 : BitVec 32 := 0#32
  ![v24.toNat, 0]

def k3_chk4 (v24 : BitVec 32) : Prop :=
  (∀ a, (k3_off8 v24) a + S1x32.size a ≤ S1000000x32.size a) ∧
  (∀ a, (k3_off20 v24) a + S1x32.size a ≤ S1000000x32.size a)
instance k3_chk4.dec : ∀ (v24 : BitVec 32), Decidable (k3_chk4 v24) := fun v24 => decidable_of_iff' _ (Iff.of_eq (k3_chk4.eq_1 v24))
theorem k3_off8_inb : ∀ (v24 : BitVec 32) (k3_hw4 : k3_chk4 v24), ∀ a, (k3_off8 v24) a + S1x32.size a ≤ S1000000x32.size a := fun v24 k3_hw4 => k3_hw4.1
theorem k3_off20_inb : ∀ (v24 : BitVec 32) (k3_hw4 : k3_chk4 v24), ∀ a, (k3_off20 v24) a + S1x32.size a ≤ S1000000x32.size a := fun v24 k3_hw4 => k3_hw4.2

def k3_off21 (v31 : BitVec 32) : Fin 2 → Nat :=
  let c0_i32_51 : BitVec 32 := 0#32
  ![v31.toNat, 0]

def k3_chk5 (v31 : BitVec 32) : Prop :=
  (∀ a, (k3_off10 v31) a + S1x32.size a ≤ S1000000x32.size a) ∧
  (∀ a, (k3_off21 v31) a + S1x32.size a ≤ S1000000x32.size a)
instance k3_chk5.dec : ∀ (v31 : BitVec 32), Decidable (k3_chk5 v31) := fun v31 => decidable_of_iff' _ (Iff.of_eq (k3_chk5.eq_1 v31))
theorem k3_off10_inb : ∀ (v31 : BitVec 32) (k3_hw5 : k3_chk5 v31), ∀ a, (k3_off10 v31) a + S1x32.size a ≤ S1000000x32.size a := fun v31 k3_hw5 => k3_hw5.1
theorem k3_off21_inb : ∀ (v31 : BitVec 32) (k3_hw5 : k3_chk5 v31), ∀ a, (k3_off21 v31) a + S1x32.size a ≤ S1000000x32.size a := fun v31 k3_hw5 => k3_hw5.2

def k3_off22 (v38 : BitVec 32) : Fin 2 → Nat :=
  let c0_i32_55 : BitVec 32 := 0#32
  ![v38.toNat, 0]

def k3_chk6 (v38 : BitVec 32) : Prop :=
  (∀ a, (k3_off12 v38) a + S1x32.size a ≤ S1000000x32.size a) ∧
  (∀ a, (k3_off22 v38) a + S1x32.size a ≤ S1000000x32.size a)
instance k3_chk6.dec : ∀ (v38 : BitVec 32), Decidable (k3_chk6 v38) := fun v38 => decidable_of_iff' _ (Iff.of_eq (k3_chk6.eq_1 v38))
theorem k3_off12_inb : ∀ (v38 : BitVec 32) (k3_hw6 : k3_chk6 v38), ∀ a, (k3_off12 v38) a + S1x32.size a ≤ S1000000x32.size a := fun v38 k3_hw6 => k3_hw6.1
theorem k3_off22_inb : ∀ (v38 : BitVec 32) (k3_hw6 : k3_chk6 v38), ∀ a, (k3_off22 v38) a + S1x32.size a ≤ S1000000x32.size a := fun v38 k3_hw6 => k3_hw6.2

def k3_off23 (v45 : BitVec 32) : Fin 2 → Nat :=
  let c0_i32_59 : BitVec 32 := 0#32
  ![v45.toNat, 0]

def k3_chk7 (v45 : BitVec 32) : Prop :=
  (∀ a, (k3_off14 v45) a + S1x32.size a ≤ S1000000x32.size a) ∧
  (∀ a, (k3_off23 v45) a + S1x32.size a ≤ S1000000x32.size a)
instance k3_chk7.dec : ∀ (v45 : BitVec 32), Decidable (k3_chk7 v45) := fun v45 => decidable_of_iff' _ (Iff.of_eq (k3_chk7.eq_1 v45))
theorem k3_off14_inb : ∀ (v45 : BitVec 32) (k3_hw7 : k3_chk7 v45), ∀ a, (k3_off14 v45) a + S1x32.size a ≤ S1000000x32.size a := fun v45 k3_hw7 => k3_hw7.1
theorem k3_off23_inb : ∀ (v45 : BitVec 32) (k3_hw7 : k3_chk7 v45), ∀ a, (k3_off23 v45) a + S1x32.size a ≤ S1000000x32.size a := fun v45 k3_hw7 => k3_hw7.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

class Facts₀ : Prop where
  shapeCasts_S4096x26x2_S212992 : S4096x26x2.ShapeCasts S212992
  slices_S212992_S53248_0 : S212992.Slices ![0] S53248
  numel1_S1 : S1.numel = 1
  inb_S8_S1_0 : ∀ a, (![0] : Fin 1 → Nat) a + S1.size a ≤ S8.size a
  squeezes_S1_S_ : S1.Squeezes S_
  inb_S8x32_S1x32_0_0 : ∀ a, (![0, 0] : Fin 2 → Nat) a + S1x32.size a ≤ S8x32.size a
  inb_S8_S1_1 : ∀ a, (![1] : Fin 1 → Nat) a + S1.size a ≤ S8.size a
  inb_S8x32_S1x32_1_0 : ∀ a, (![1, 0] : Fin 2 → Nat) a + S1x32.size a ≤ S8x32.size a
  inb_S8_S1_2 : ∀ a, (![2] : Fin 1 → Nat) a + S1.size a ≤ S8.size a
  inb_S8x32_S1x32_2_0 : ∀ a, (![2, 0] : Fin 2 → Nat) a + S1x32.size a ≤ S8x32.size a
  inb_S8_S1_3 : ∀ a, (![3] : Fin 1 → Nat) a + S1.size a ≤ S8.size a
  inb_S8x32_S1x32_3_0 : ∀ a, (![3, 0] : Fin 2 → Nat) a + S1x32.size a ≤ S8x32.size a
  inb_S8_S1_4 : ∀ a, (![4] : Fin 1 → Nat) a + S1.size a ≤ S8.size a
  inb_S8x32_S1x32_4_0 : ∀ a, (![4, 0] : Fin 2 → Nat) a + S1x32.size a ≤ S8x32.size a
  inb_S8_S1_5 : ∀ a, (![5] : Fin 1 → Nat) a + S1.size a ≤ S8.size a
  inb_S8x32_S1x32_5_0 : ∀ a, (![5, 0] : Fin 2 → Nat) a + S1x32.size a ≤ S8x32.size a
  inb_S8_S1_6 : ∀ a, (![6] : Fin 1 → Nat) a + S1.size a ≤ S8.size a
  inb_S8x32_S1x32_6_0 : ∀ a, (![6, 0] : Fin 2 → Nat) a + S1x32.size a ≤ S8x32.size a
  inb_S8_S1_7 : ∀ a, (![7] : Fin 1 → Nat) a + S1.size a ≤ S8.size a
  inb_S8x32_S1x32_7_0 : ∀ a, (![7, 0] : Fin 2 → Nat) a + S1x32.size a ≤ S8x32.size a
  inb_S8x32_S8x32_0_0 : ∀ a, (![0, 0] : Fin 2 → Nat) a + S8x32.size a ≤ S8x32.size a
  h_S8x32 : 0 < S8x32.numel
  slices_S212992_S53248_53248 : S212992.Slices ![53248] S53248
  slices_S212992_S53248_106496 : S212992.Slices ![106496] S53248
  slices_S212992_S53248_159744 : S212992.Slices ![159744] S53248
  concatenates_S53248x32_S53248x32_S53248x32_S53248x32_S212992x32_d0 : Shape.Concatenates [S53248x32, S53248x32, S53248x32, S53248x32] S212992x32 0
  shapeCasts_S212992x32_S4096x26x2x32 : S212992x32.ShapeCasts S4096x26x2x32
  hcc0_scratch1 : 2 + S8.numel ≤ 40
  hcc1_scratch1 : 12 + S8.numel ≤ 40
  hcc2_scratch1 : 22 + S8.numel ≤ 40
  hcc3_scratch1 : 32 + S8.numel ≤ 40
  hrank0 : 0 < grid0.rank
  k0_off1_inb : ∀ i : grid0.Coords, ∀ a, (k0_off1 i) a + S1.size a ≤ S53248.size a
  k0_off3_inb : ∀ i : grid0.Coords, ∀ a, (k0_off3 i) a + S1.size a ≤ S53248.size a
  k0_off5_inb : ∀ i : grid0.Coords, ∀ a, (k0_off5 i) a + S1.size a ≤ S53248.size a
  k0_off7_inb : ∀ i : grid0.Coords, ∀ a, (k0_off7 i) a + S1.size a ≤ S53248.size a
  k0_off9_inb : ∀ i : grid0.Coords, ∀ a, (k0_off9 i) a + S1.size a ≤ S53248.size a
  k0_off11_inb : ∀ i : grid0.Coords, ∀ a, (k0_off11 i) a + S1.size a ≤ S53248.size a
  k0_off13_inb : ∀ i : grid0.Coords, ∀ a, (k0_off13 i) a + S1.size a ≤ S53248.size a
  k0_off15_inb : ∀ i : grid0.Coords, ∀ a, (k0_off15 i) a + S1.size a ≤ S53248.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x32.size a ≤ S53248x32.size a
  hwx0_0 : ∀ i : grid0.Coords, EltTy.bits .f32 = 32 ∨ (Rect.block (s := S53248x32) S8x32.size (cc0_transform_1 i) (hinb0_0 i)).WholeWords (EltTy.packing .f32)
  hrank1 : 0 < grid1.rank
  k1_off1_inb : ∀ i : grid1.Coords, ∀ a, (k1_off1 i) a + S1.size a ≤ S53248.size a
  k1_off3_inb : ∀ i : grid1.Coords, ∀ a, (k1_off3 i) a + S1.size a ≤ S53248.size a
  k1_off5_inb : ∀ i : grid1.Coords, ∀ a, (k1_off5 i) a + S1.size a ≤ S53248.size a
  k1_off7_inb : ∀ i : grid1.Coords, ∀ a, (k1_off7 i) a + S1.size a ≤ S53248.size a
  k1_off9_inb : ∀ i : grid1.Coords, ∀ a, (k1_off9 i) a + S1.size a ≤ S53248.size a
  k1_off11_inb : ∀ i : grid1.Coords, ∀ a, (k1_off11 i) a + S1.size a ≤ S53248.size a
  k1_off13_inb : ∀ i : grid1.Coords, ∀ a, (k1_off13 i) a + S1.size a ≤ S53248.size a
  k1_off15_inb : ∀ i : grid1.Coords, ∀ a, (k1_off15 i) a + S1.size a ≤ S53248.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S8x32.size a ≤ S53248x32.size a
  hwx1_0 : ∀ i : grid1.Coords, EltTy.bits .f32 = 32 ∨ (Rect.block (s := S53248x32) S8x32.size (cc1_transform_1 i) (hinb1_0 i)).WholeWords (EltTy.packing .f32)
  hrank2 : 0 < grid2.rank
  k2_off1_inb : ∀ i : grid2.Coords, ∀ a, (k2_off1 i) a + S1.size a ≤ S53248.size a
  k2_off3_inb : ∀ i : grid2.Coords, ∀ a, (k2_off3 i) a + S1.size a ≤ S53248.size a
  k2_off5_inb : ∀ i : grid2.Coords, ∀ a, (k2_off5 i) a + S1.size a ≤ S53248.size a
  k2_off7_inb : ∀ i : grid2.Coords, ∀ a, (k2_off7 i) a + S1.size a ≤ S53248.size a
  k2_off9_inb : ∀ i : grid2.Coords, ∀ a, (k2_off9 i) a + S1.size a ≤ S53248.size a
  k2_off11_inb : ∀ i : grid2.Coords, ∀ a, (k2_off11 i) a + S1.size a ≤ S53248.size a
  k2_off13_inb : ∀ i : grid2.Coords, ∀ a, (k2_off13 i) a + S1.size a ≤ S53248.size a
  k2_off15_inb : ∀ i : grid2.Coords, ∀ a, (k2_off15 i) a + S1.size a ≤ S53248.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x32.size a ≤ S53248x32.size a
  hwx2_0 : ∀ i : grid2.Coords, EltTy.bits .f32 = 32 ∨ (Rect.block (s := S53248x32) S8x32.size (cc2_transform_1 i) (hinb2_0 i)).WholeWords (EltTy.packing .f32)
  hrank3 : 0 < grid3.rank
  k3_off1_inb : ∀ i : grid3.Coords, ∀ a, (k3_off1 i) a + S1.size a ≤ S53248.size a
  k3_off3_inb : ∀ i : grid3.Coords, ∀ a, (k3_off3 i) a + S1.size a ≤ S53248.size a
  k3_off5_inb : ∀ i : grid3.Coords, ∀ a, (k3_off5 i) a + S1.size a ≤ S53248.size a
  k3_off7_inb : ∀ i : grid3.Coords, ∀ a, (k3_off7 i) a + S1.size a ≤ S53248.size a
  k3_off9_inb : ∀ i : grid3.Coords, ∀ a, (k3_off9 i) a + S1.size a ≤ S53248.size a
  k3_off11_inb : ∀ i : grid3.Coords, ∀ a, (k3_off11 i) a + S1.size a ≤ S53248.size a
  k3_off13_inb : ∀ i : grid3.Coords, ∀ a, (k3_off13 i) a + S1.size a ≤ S53248.size a
  k3_off15_inb : ∀ i : grid3.Coords, ∀ a, (k3_off15 i) a + S1.size a ≤ S53248.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S8x32.size a ≤ S53248x32.size a
  hwx3_0 : ∀ i : grid3.Coords, EltTy.bits .f32 = 32 ∨ (Rect.block (s := S53248x32) S8x32.size (cc3_transform_1 i) (hinb3_0 i)).WholeWords (EltTy.packing .f32)

variable [Facts₀]

abbrev cc0_scratch1 : DmaSems sig S8 := SemArray.consecutive 2 S8 hcc0_scratch1
abbrev cc1_scratch1 : DmaSems sig S8 := SemArray.consecutive 12 S8 hcc1_scratch1
abbrev cc2_scratch1 : DmaSems sig S8 := SemArray.consecutive 22 S8 hcc2_scratch1
abbrev cc3_scratch1 : DmaSems sig S8 := SemArray.consecutive 32 S8 hcc3_scratch1

abbrev spec0_0 : Pipeline.WinSpec sig grid0.rank :=
  Pipeline.WinSpec.ofSpec (Memref.whole main_v2) S8x32.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v4) S8x32.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v6) S8x32.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v8) S8x32.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S4096x26x2 : Shape := ⟨3, ![4096, 26, 2]⟩
abbrev S1000000x32 : Shape := ⟨2, ![1000000, 32]⟩
abbrev S_ : Shape := ⟨0, ![]⟩
abbrev S4096x26x2x1 : Shape := ⟨4, ![4096, 26, 2, 1]⟩
abbrev S1 : Shape := ⟨1, ![1]⟩
abbrev S1x1x1x1 : Shape := ⟨4, ![1, 1, 1, 1]⟩
abbrev S4096x26x2x32 : Shape := ⟨4, ![4096, 26, 2, 32]⟩

abbrev nBuf : Space → Nat
  | .hbm => 25
  | .vmem => 0
  | .smem => 0
  | _ => 0

abbrev bufTy : (tb : Table) → Fin (tcTables nBuf tb) → BufTy
  | .hbm, ⟨0, _⟩ => ⟨S4096x26x2, .i32⟩
  | .hbm, ⟨1, _⟩ => ⟨S1000000x32, .f32⟩
  | .hbm, ⟨2, _⟩ => ⟨S_, .i32⟩
  | .hbm, ⟨3, _⟩ => ⟨S4096x26x2, .i32⟩
  | .hbm, ⟨4, _⟩ => ⟨S4096x26x2, .i1⟩
  | .hbm, ⟨5, _⟩ => ⟨S_, .i32⟩
  | .hbm, ⟨6, _⟩ => ⟨S4096x26x2, .i32⟩
  | .hbm, ⟨7, _⟩ => ⟨S4096x26x2, .i32⟩
  | .hbm, ⟨8, _⟩ => ⟨S4096x26x2, .i32⟩
  | .hbm, ⟨9, _⟩ => ⟨S4096x26x2x1, .i32⟩
  | .hbm, ⟨10, _⟩ => ⟨S1, .i32⟩
  | .hbm, ⟨11, _⟩ => ⟨S_, .i32⟩
  | .hbm, ⟨12, _⟩ => ⟨S4096x26x2x1, .i32⟩
  | .hbm, ⟨13, _⟩ => ⟨S4096x26x2x1, .i1⟩
  | .hbm, ⟨14, _⟩ => ⟨S1x1x1x1, .i32⟩
  | .hbm, ⟨15, _⟩ => ⟨S4096x26x2x1, .i32⟩
  | .hbm, ⟨16, _⟩ => ⟨S4096x26x2x1, .i1⟩
  | .hbm, ⟨17, _⟩ => ⟨S4096x26x2x1, .i1⟩
  | .hbm, ⟨18, _⟩ => ⟨S_, .i1⟩
  | .hbm, ⟨19, _⟩ => ⟨S4096x26x2, .i1⟩
  | .hbm, ⟨20, _⟩ => ⟨S4096x26x2x32, .f32⟩
  | .hbm, ⟨21, _⟩ => ⟨S4096x26x2x32, .i1⟩
  | .hbm, ⟨22, _⟩ => ⟨S_, .f32⟩
  | .hbm, ⟨23, _⟩ => ⟨S4096x26x2x32, .f32⟩
  | .hbm, ⟨24, _⟩ => ⟨S4096x26x2x32, .f32⟩
  | _, _ => ⟨S4096x26x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x26x2 : S_.BroadcastsInDim S4096x26x2 (![] : Fin 0 → Fin S4096x26x2.rank)
  bcast_S4096x26x2_S4096x26x2x1_0_1_2 : S4096x26x2.BroadcastsInDim S4096x26x2x1 (![0, 1, 2] : Fin 3 → Fin S4096x26x2x1.rank)
  bcast_S_S4096x26x2x1 : S_.BroadcastsInDim S4096x26x2x1 (![] : Fin 0 → Fin S4096x26x2x1.rank)
  bcast_S1_S1x1x1x1_3 : S1.BroadcastsInDim S1x1x1x1 (![3] : Fin 1 → Fin S1x1x1x1.rank)
  bcast_S1x1x1x1_S4096x26x2x1_0_1_2_3 : S1x1x1x1.BroadcastsInDim S4096x26x2x1 (![0, 1, 2, 3] : Fin 4 → Fin S4096x26x2x1.rank)
  reducesTo_S4096x26x2x1_S4096x26x2_d3 : S4096x26x2x1.ReducesTo [3] S4096x26x2
  h_S_ : 0 < S_.numel
  bcast_S4096x26x2_S4096x26x2x32_0_1_2 : S4096x26x2.BroadcastsInDim S4096x26x2x32 (![0, 1, 2] : Fin 3 → Fin S4096x26x2x32.rank)
  bcast_S_S4096x26x2x32 : S_.BroadcastsInDim S4096x26x2x32 (![] : Fin 0 → Fin S4096x26x2x32.rank)
  gather_S1000000x32_S4096x26x2x1_S4096x26x2x32_3_0_n_n_0_3_132_wf : GatherDims.WF S1000000x32 S4096x26x2x1 S4096x26x2x32 [3] [0] [] [0] [] 3 ![1, 32]

variable [Facts₀]

def gather_S1000000x32_S4096x26x2x1_S4096x26x2x32_3_0_n_n_0_3_132 : GatherDims S1000000x32 S4096x26x2x1 S4096x26x2x32 where
  offsetDims := [3]
  collapsedSliceDims := [0]
  operandBatchingDims := []
  startIndicesBatchingDims := []
  startIndexMap := [0]
  indexVectorDim := 3
  sliceSizes := ![1, 32]
  wf := gather_S1000000x32_S4096x26x2x1_S4096x26x2x32_3_0_n_n_0_3_132_wf

class Facts : Prop extends Facts₀ where

variable [Facts]
-- ==== Proof.LibReadTokens.lean ====
import Idealize.ShloMosaic.Lib.Transfers

noncomputable section

namespace Cert.LibReadTokens

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {ℓ : Loc nD τ sig} {S : Finset (Idx ℓ)} {f : Buf Val ℓ}

theorem drop_step (q : PosShare TreeShare) (k : ℕ) :
    (ℓ ↦[S]{shareDrop q k} f : sProp 𝕄) ⊣⊢ iprop((ℓ ↦[S]{shareDrop q (k + 1)} f) ∗ ℓ ↦[S]{shareTokN q k} f) :=
  pointsTo_share (PosShare.mem_left_op_right _)

theorem split8 (q : PosShare TreeShare) (b : ℕ) :
    (ℓ ↦[S]{q} f : sProp 𝕄) ⊢ iprop((BI.bigSep (Finset.range b) (fun i => ℓ ↦[S]{shareTokN q i} f))
      ∗ (ℓ ↦[S]{shareDrop q (b + 8)} f)
      ∗ (ℓ ↦[S]{shareTokN q b} f) ∗ (ℓ ↦[S]{shareTokN q (b + 1)} f) ∗ (ℓ ↦[S]{shareTokN q (b + 2)} f) ∗ (ℓ ↦[S]{shareTokN q (b + 3)} f)
      ∗ (ℓ ↦[S]{shareTokN q (b + 4)} f) ∗ (ℓ ↦[S]{shareTokN q (b + 5)} f) ∗ (ℓ ↦[S]{shareTokN q (b + 6)} f) ∗ (ℓ ↦[S]{shareTokN q (b + 7)} f)) := by
  iintro H
  ihave H := (pointsTo_toks_range (Ix := Ix) (Name := Name) (U := U) (Lvl := Lvl) q b).1 $$ H
  icases H with ⟨Hd, Hu⟩
  ihave Hd := (drop_step (Ix := Ix) (Name := Name) (U := U) (Lvl := Lvl) q b).1 $$ Hd
  icases Hd with ⟨Hd, T0⟩
  ihave Hd := (drop_step (Ix := Ix) (Name := Name) (U := U) (Lvl := Lvl) q (b + 1)).1 $$ Hd
  icases Hd with ⟨Hd, T1⟩
  ihave Hd := (drop_step (Ix := Ix) (Name := Name) (U := U) (Lvl := Lvl) q (b + 2)).1 $$ Hd
  icases Hd with ⟨Hd, T2⟩
  ihave Hd := (drop_step (Ix := Ix) (Name := Name) (U := U) (Lvl := Lvl) q (b + 3)).1 $$ Hd
  icases Hd with ⟨Hd, T3⟩
  ihave Hd := (drop_step (Ix := Ix) (Name := Name) (U := U) (Lvl := Lvl) q (b + 4)).1 $$ Hd
  icases Hd with ⟨Hd, T4⟩
  ihave Hd := (drop_step (Ix := Ix) (Name := Name) (U := U) (Lvl := Lvl) q (b + 5)).1 $$ Hd
  icases Hd with ⟨Hd, T5⟩
  ihave Hd := (drop_step (Ix := Ix) (Name := Name) (U := U) (Lvl := Lvl) q (b + 6)).1 $$ Hd
  icases Hd with ⟨Hd, T6⟩
  ihave Hd := (drop_step (Ix := Ix) (Name := Name) (U := U) (Lvl := Lvl) q (b + 7)).1 $$ Hd
  icases Hd with ⟨Hd, T7⟩
  iframe Hu Hd T0 T1 T2 T3 T4 T5 T6 T7

theorem join8 (q : PosShare TreeShare) (b : ℕ) :
    iprop((BI.bigSep (Finset.range b) (fun i => ℓ ↦[S]{shareTokN q i} f))
      ∗ (ℓ ↦[S]{shareDrop q (b + 8)} f)
      ∗ (ℓ ↦[S]{shareTokN q b} f) ∗ (ℓ ↦[S]{shareTokN q (b + 1)} f) ∗ (ℓ ↦[S]{shareTokN q (b + 2)} f) ∗ (ℓ ↦[S]{shareTokN q (b + 3)} f)
      ∗ (ℓ ↦[S]{shareTokN q (b + 4)} f) ∗ (ℓ ↦[S]{shareTokN q (b + 5)} f) ∗ (ℓ ↦[S]{shareTokN q (b + 6)} f) ∗ (ℓ ↦[S]{shareTokN q (b + 7)} f))
      ⊢ (ℓ ↦[S]{q} f : sProp 𝕄) := by
  iintro ⟨Hu, Hd, T0, T1, T2, T3, T4, T5, T6, T7⟩
  ihave Hd := (drop_step (Ix := Ix) (Name := Name) (U := U) (Lvl := Lvl) q (b + 7)).2 $$ [Hd T7]
  · iframe Hd T7
  ihave Hd := (drop_step (Ix := Ix) (Name := Name) (U := U) (Lvl := Lvl) q (b + 6)).2 $$ [Hd T6]
  · iframe Hd T6
  ihave Hd := (drop_step (Ix := Ix) (Name := Name) (U := U) (Lvl := Lvl) q (b + 5)).2 $$ [Hd T5]
  · iframe Hd T5
  ihave Hd := (drop_step (Ix := Ix) (Name := Name) (U := U) (Lvl := Lvl) q (b + 4)).2 $$ [Hd T4]
  · iframe Hd T4
  ihave Hd := (drop_step (Ix := Ix) (Name := Name) (U := U) (Lvl := Lvl) q (b + 3)).2 $$ [Hd T3]
  · iframe Hd T3
  ihave Hd := (drop_step (Ix := Ix) (Name := Name) (U := U) (Lvl := Lvl) q (b + 2)).2 $$ [Hd T2]
  · iframe Hd T2
  ihave Hd := (drop_step (Ix := Ix) (Name := Name) (U := U) (Lvl := Lvl) q (b + 1)).2 $$ [Hd T1]
  · iframe Hd T1
  ihave Hd := (drop_step (Ix := Ix) (Name := Name) (U := U) (Lvl := Lvl) q b).2 $$ [Hd T0]
  · iframe Hd T0
  iapply (pointsTo_toks_range (Ix := Ix) (Name := Name) (U := U) (Lvl := Lvl) q b).2
  iframe Hd Hu

end Cert.LibReadTokens

end
-- ==== Proof.K.Run.lean ====
import proofs.«413815_j28827820491521_2_alg».proof.Proof.Gen.Kernel.Launch
import proofs.«413815_j28827820491521_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«413815_j28827820491521_2_alg».proof.Proof.LibReadTokens

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four bodies are one function: their definitions differ only in the names of equal helper definitions. -/
theorem body1_eq : @cc1__gather_kernel F _ = cc0__gather_kernel := rfl
theorem body2_eq : @cc2__gather_kernel F _ = cc0__gather_kernel := rfl
theorem body3_eq : @cc3__gather_kernel F _ = cc0__gather_kernel := rfl

abbrev hbM : Memref sig .tc .hbm S1000000x32 .f32 := Memref.whole main_arg1
abbrev HbBuf (c : Dev nD) : Type := Buf (Elt F) (hbM.view.loc (c : Thread nD τ))
abbrev hbPt (c : Dev nD) (f : HbBuf (F := F) c) : sProp 𝕄 := hbM.view.loc (c : Thread nD τ) ↦{fullShare} f

/-- The word of the index table `x0`, seen through `arg1`, at offset `o`. -/
abbrev wordAt (arg1 : Memref sig .tc .smem S53248 .i32) (harg1 : arg1.IsWhole) (x0 : Vec F S53248 .i32) (o : Fin 1 → Nat)
    (ho : ∀ a, o a + S1.size a ≤ S53248.size a) :=
  arg1.view.readAt (Elt F) (Rect.unit (s := S53248) o S1.size ho).toLoadRect (harg1.unread x0) (Shape.Idx.first (numel1_S1.symm ▸ Nat.one_pos))

/-- Each of the eight words point `i` reads names a row of the big table. -/
def Hyp (i : grid0.Coords) (arg1 : Memref sig .tc .smem S53248 .i32) (harg1 : arg1.IsWhole) (x0 : Vec F S53248 .i32) : Prop :=
  k0_chk1 (wordAt arg1 harg1 x0 (k0_off1 i) (k0_off1_inb i)) ∧ k0_chk2 (wordAt arg1 harg1 x0 (k0_off3 i) (k0_off3_inb i))
  ∧ k0_chk3 (wordAt arg1 harg1 x0 (k0_off5 i) (k0_off5_inb i)) ∧ k0_chk4 (wordAt arg1 harg1 x0 (k0_off7 i) (k0_off7_inb i))
  ∧ k0_chk5 (wordAt arg1 harg1 x0 (k0_off9 i) (k0_off9_inb i)) ∧ k0_chk6 (wordAt arg1 harg1 x0 (k0_off11 i) (k0_off11_inb i))
  ∧ k0_chk7 (wordAt arg1 harg1 x0 (k0_off13 i) (k0_off13_inb i)) ∧ k0_chk8 (wordAt arg1 harg1 x0 (k0_off15 i) (k0_off15_inb i))

/-- Eight semaphores at zero. -/
abbrev semsAt (c : Dev nD) (q0 q1 q2 q3 q4 q5 q6 q7 : DmaSem sig) : sProp 𝕄 :=
  iprop(semVal ((c : Thread nD τ), SemLoc.dma q0) 0 ∗ semVal ((c : Thread nD τ), SemLoc.dma q1) 0 ∗ semVal ((c : Thread nD τ), SemLoc.dma q2) 0 ∗ semVal ((c : Thread nD τ), SemLoc.dma q3) 0 ∗ semVal ((c : Thread nD τ), SemLoc.dma q4) 0 ∗ semVal ((c : Thread nD τ), SemLoc.dma q5) 0 ∗ semVal ((c : Thread nD τ), SemLoc.dma q6) 0 ∗ semVal ((c : Thread nD τ), SemLoc.dma q7) 0)

/-- The body's specification at point `i` with semaphores `q0 … q7`: the index table and the big table are kept, and the
    output block `arg3` ends with the pieces `L1` written into it. -/
def RunSpec (c : Dev nD) (i : grid0.Coords) (arg1 : Memref sig .tc .smem S53248 .i32) (harg1 : arg1.IsWhole)
    (arg3 : Memref sig .tc .vmem S8x32 .f32) (harg3 : arg3.IsWhole) (arg4 : Memref sig .tc .vmem S8x32 .f32) (harg4 : arg4.IsWhole)
    (x0 : Vec F S53248 .i32) (fh0 : HbBuf (F := F) c) (q0 q1 q2 q3 q4 q5 q6 q7 : DmaSem sig) (sems : DmaSems sig S8)
    (L1 : List (View.Piece (Elt F) S8x32 .f32)) : Prop :=
  ∀ (W : Waits sig Unit) (K : PUnit → sProp 𝕄),
    iprop(owns (c : Thread nD τ) arg1 fullShare x0 ∗ (∃ d, owns (c : Thread nD τ) arg3 fullShare d) ∗ (∃ d, owns (c : Thread nD τ) arg4 fullShare d) ∗ semsAt c q0 q1 q2 q3 q4 q5 q6 q7 ∗ hbPt c fh0 ∗ owes (c : Thread nD τ) 0 W
        ∗ (iprop(owns (c : Thread nD τ) arg1 fullShare x0 ∗ (∃ f, arg3.view.loc (c : Thread nD τ) ↦[arg3.view.set]{fullShare} arg3.view.writes (Elt F) f L1) ∗ (∃ d, owns (c : Thread nD τ) arg4 fullShare d) ∗ semsAt c q0 q1 q2 q3 q4 q5 q6 q7 ∗ hbPt c fh0 ∗ (∃ W', owes (c : Thread nD τ) 0 W')) -∗ K ⟨⟩))
      ⊢ wp frame (wpE (defs₀ (F := F)) Variants.none c none) Set.univ (cc0__gather_kernel i arg1 harg1 (Memref.whole main_arg1) (Memref.isWhole_whole _) arg3 harg3 arg4 harg4 sems) K

section Runs

variable (c : Dev nD) (i : grid0.Coords) (arg1 : Memref sig .tc .smem S53248 .i32) (harg1 : arg1.IsWhole)
  (arg3 : Memref sig .tc .vmem S8x32 .f32) (harg3 : arg3.IsWhole) (arg4 : Memref sig .tc .vmem S8x32 .f32) (harg4 : arg4.IsWhole)
  (x0 : Vec F S53248 .i32) (fh0 : HbBuf (F := F) c) (hw : Hyp i arg1 harg1 x0)

include hw in
set_option sl_exec.dmaWindow true in
set_option sl_exec.dmaWindowSet true in
set_option maxHeartbeats 4000000 in
noncomputable def kernelRun0 :
    { L1 : List (View.Piece (Elt F) S8x32 .f32) // RunSpec c i arg1 harg1 arg3 harg3 arg4 harg4 x0 fh0 2 3 4 5 6 7 8 9 cc0_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 2) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 2)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

include hw in
set_option sl_exec.dmaWindow true in
set_option sl_exec.dmaWindowSet true in
set_option maxHeartbeats 4000000 in
noncomputable def kernelRun1 :
    { L1 : List (View.Piece (Elt F) S8x32 .f32) // RunSpec c i arg1 harg1 arg3 harg3 arg4 harg4 x0 fh0 12 13 14 15 16 17 18 19 cc1_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 12) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 12)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

include hw in
set_option sl_exec.dmaWindow true in
set_option sl_exec.dmaWindowSet true in
set_option maxHeartbeats 4000000 in
noncomputable def kernelRun2 :
    { L1 : List (View.Piece (Elt F) S8x32 .f32) // RunSpec c i arg1 harg1 arg3 harg3 arg4 harg4 x0 fh0 22 23 24 25 26 27 28 29 cc2_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 22) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 22)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

include hw in
set_option sl_exec.dmaWindow true in
set_option sl_exec.dmaWindowSet true in
set_option maxHeartbeats 4000000 in
noncomputable def kernelRun3 :
    { L1 : List (View.Piece (Elt F) S8x32 .f32) // RunSpec c i arg1 harg1 arg3 harg3 arg4 harg4 x0 fh0 32 33 34 35 36 37 38 39 cc3_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 32) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 32)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

/-- The run's pieces tile the output block, so they cover it. -/
theorem cover (y : S8x32.Idx) : ∃ pc ∈ (kernelRun0 c i arg1 harg1 arg3 harg3 arg4 harg4 x0 fh0 hw).1, y ∈ pc.1.set :=
  View.cover_of_tiledL (kernelRun0 c i arg1 harg1 arg3 harg3 arg4 harg4 x0 fh0 hw).1 S8x32.size (by sl_kernel_rfl) y

/-- What the run leaves in the output block: its pieces read back. -/
def out : Vec F S8x32 .f32 := View.canon (kernelRun0 c i arg1 harg1 arg3 harg3 arg4 harg4 x0 fh0 hw).1

/-- A buffer into which these pieces were written reads as `out`, whatever it held before. -/
theorem read_writes_out {L : List (View.Piece (Elt F) S8x32 .f32)} (hL : L = (kernelRun0 c i arg1 harg1 arg3 harg3 arg4 harg4 x0 fh0 hw).1)
    {sp : Space} (v : View sig .tc sp S8x32 .f32) (f : v.ty.Contents (Elt F)) :
    v.read (Elt F) (v.writes (Elt F) f L) = out c i arg1 harg1 arg3 harg3 arg4 harg4 x0 fh0 hw :=
  hL ▸ (View.read_writes_of_cover _ _ v v.junk _ (cover c i arg1 harg1 arg3 harg3 arg4 harg4 x0 fh0 hw)).trans (View.read_writes_junk_eq_canon v _)

end Runs

end Cert.Kernel.Hand

end
-- ==== Proof.K.Region0.lean ====
import proofs.«413815_j28827820491521_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp0 (i : grid0.Coords) (x0 : Vec F S53248 .i32) : Prop :=
  Hyp i (Memref.whole main_v1 : Memref sig .tc .smem S53248 .i32) (Memref.isWhole_whole _) x0

abbrev osem0 : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semsAt c 2 3 4 5 6 7 8 9 := by
  rw [Pipeline.ownSems0_eq_of_list c osem0 [0, 1, 2, 3, 4, 5, 6, 7] (by decide) (by decide)]; rfl

def Hop0 : Finset (Ref sig .tc) := {main_arg1}
theorem Hop0_sub : Hop0 ⊆ Pipeline.restRefs sig spec0 := by decide
theorem Hop0_subP : Hop0 ⊆ Pipeline.restRefsP sig pre0 spec0 := by decide

section Region0

variable (V : (c : Dev nD) → (b : Ref sig .tc) → Buf (Elt F) ((c : Thread nD τ).loc b))
variable (a : (pcfg0 (F := F)).Adm)

theorem hbmPts0_eq (c : Dev nD) :
    (bigSep Hop0 (fun b => ((c : Thread nD τ).loc b) ↦{fullShare} V c b) : sProp 𝕄) = iprop(hbPt c (V c main_arg1)) := by
  rw [BI.bigSep_eq_bigSepL_of_eq [main_arg1] (by decide) (by decide)]; rfl

abbrev tb0 : Vec F S53248 .i32 := a.1 0
abbrev tbM0 : Memref sig .tc .smem S53248 .i32 := Memref.whole main_v1
abbrev scM0 : Memref sig .tc .vmem S8x32 .f32 := Memref.whole cc0_scratch0

abbrev ms0 (t : Fin (cfg0 a).N) : Memref sig .tc .vmem S8x32 .f32 := spec0_0.stage ((cfg0 a).slots t 0)
abbrev hs0 (t : Fin (cfg0 a).N) : (ms0 a t).IsWhole := hstage0_0 (((cfg0 a).slots t 0).cast nbuf0_0)

abbrev bodyAt0 (t : Fin (cfg0 a).N) : Prog (TpuEff nD τ sig (Elt F) Λ₀ .tc) PUnit :=
  cc0__gather_kernel ((cfg0 a).grid.coords t) (Memref.whole main_v1) (Memref.isWhole_whole _) (Memref.whole main_arg1) (Memref.isWhole_whole _) (ms0 a t) (hs0 a t) (Memref.whole cc0_scratch0) (Memref.isWhole_whole _) cc0_scratch1

theorem prefHeld0_eq (c : Dev nD) :
    (Pipeline.prefHeld (Ix := Unit) (Name := ℕ) (U := Pipeline.UD sig nD τ) (Lvl := ℕ) pre0 c (fun _ => fullShare) a.1 : sProp 𝕄)
      = iprop(owns (c : Thread nD τ) tbM0 fullShare (tb0 a)) := by
  unfold Pipeline.prefHeld
  rw [bigSep_W0, owns_whole]
  rfl

theorem PhiD0_eq (c : Dev nD) :
    (Pipeline.ΦD osem0 spec0 Hop0 V c : sProp 𝕄)
      = iprop(iprop((∃ d, owns (c : Thread nD τ) scM0 fullShare d) ∗ Pipeline.scopedRestBut (Ix := Unit) (Name := ℕ) (U := Pipeline.UD sig nD τ) (Lvl := ℕ) (Val := Elt F) spec0 c [cc0_scratch0]) ∗ (∃ r, prngReg c r) ∗ semsAt c 2 3 4 5 6 7 8 9 ∗ iprop(hbPt c (V c main_arg1))) := by
  rw [Pipeline.ΦD_eq, Pipeline.scopedRest_split_of_list spec0 c [cc0_scratch0] (by decide) (by decide), ownSems00_eq, hbmPts0_eq]; simp only [scM0, owns_whole]; try rfl

variable (hH : ∀ t : Fin (cfg0 a).N, Hyp0 ((cfg0 a).grid.coords t) (tb0 a))

def outAt0 (c : Dev nD) (t : Fin (cfg0 a).N) : Vec F S8x32 .f32 :=
  out c ((cfg0 a).grid.coords t) (Memref.whole main_v1) (Memref.isWhole_whole _) (ms0 a t) (hs0 a t) (Memref.whole cc0_scratch0) (Memref.isWhole_whole _) (tb0 a) (V c main_arg1) (hH t)

def dat0 (c : Dev nD) : Dat τ (Elt F) Unit ℕ (Pipeline.UD sig nD τ) ℕ (cfg0 a) c where
  A w := V c (Pipeline.arrRef spec0 w)
  after w t := match w with
    | ⟨0, _⟩ => outAt0 V a hH c t
  Φ _ := iprop(Pipeline.ΦD osem0 spec0 Hop0 V c ∗ Pipeline.prefHeld (Ix := Unit) (Name := ℕ) (U := Pipeline.UD sig nD τ) (Lvl := ℕ) pre0 c (fun _ => fullShare) a.1)
  q _ := fullShare
  owed _ := 0

theorem A_eq0 (c : Dev nD) (w : Fin (cfg0 a).W) : (dat0 V a hH c).A w = V c (Pipeline.arrRef spec0 w) := by
  dsimp only [dat0]
theorem after0_0 (c : Dev nD) (t : Fin (cfg0 a).N) : (dat0 V a hH c).after 0 t = outAt0 V a hH c t := by dsimp only [dat0]; rfl

def bodyPre0 (c : Dev nD) (t : Fin (cfg0 a).N) : sProp 𝕄 :=
  iprop((dat0 V a hH c).Φ t.castSucc ∗ (dat0 V a hH c).owesAt () t.castSucc
    ∗ (∃ d, owns (c : Thread nD τ) (ms0 a t) fullShare ((dat0 V a hH c).before 0 t d)))

def bodyPost0 (c : Dev nD) (t : Fin (cfg0 a).N) : sProp 𝕄 :=
  iprop((dat0 V a hH c).Φ t.succ ∗ (dat0 V a hH c).owesAt () t.succ
    ∗ owns (c : Thread nD τ) (ms0 a t) fullShare ((dat0 V a hH c).after 0 t))

theorem sound_body0 (c : Dev nD) (t : Fin (cfg0 a).N) :
    bodyPre0 V a hH c t ⊢ wp frame (wpE (defs₀ (F := F)) Variants.none c none) Set.univ (bodyAt0 a t) (fun _ => bodyPost0 V a hH c t) := by
  unfold bodyPre0 bodyPost0 bodyAt0
  rw [show (dat0 V a hH c).Φ t.succ = (dat0 V a hH c).Φ t.castSucc from rfl, after0_0]
  rw [show (dat0 V a hH c).Φ t.castSucc = iprop(Pipeline.ΦD osem0 spec0 Hop0 V c ∗ Pipeline.prefHeld (Ix := Unit) (Name := ℕ) (U := Pipeline.UD sig nD τ) (Lvl := ℕ) pre0 c (fun _ => fullShare) a.1) from rfl,
    PhiD0_eq, prefHeld0_eq]
  unfold Dat.owesAt Pipeline.owesWithin
  rw [show (dat0 V a hH c).owed t.castSucc = 0 from rfl, show (dat0 V a hH c).owed t.succ = 0 from rfl]
  unfold outAt0 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun0 c ((cfg0 a).grid.coords t) (Memref.whole main_v1) (Memref.isWhole_whole _) (ms0 a t) (hs0 a t) (Memref.whole cc0_scratch0) (Memref.isWhole_whole _) (tb0 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation0 (c : Dev nD) : BodyObligation (dat0 (F := F) V a hH c) (defs₀ (F := F)) Variants.none () Set.univ := fun t => by
  rw [bigSep_W0, bigSep_W0]
  exact sound_body0 V a hH c t

end Region0

end Cert.Kernel.Hand

end
-- ==== Proof.K.Region1.lean ====
import proofs.«413815_j28827820491521_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp1 (i : grid0.Coords) (x0 : Vec F S53248 .i32) : Prop :=
  Hyp i (Memref.whole main_v3 : Memref sig .tc .smem S53248 .i32) (Memref.isWhole_whole _) x0

abbrev osem1 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts1 : Pipeline.OwnSemFacts spec1 osem1 := by decide
theorem ownSems10_eq (c : Dev nD) :
    (Pipeline.ownSems0 (Ix := Unit) (Name := ℕ) (U := Pipeline.UD sig nD τ) (Lvl := ℕ) (Val := Elt F) (τ := τ) osem1 c : sProp 𝕄)
      = semsAt c 12 13 14 15 16 17 18 19 := by
  rw [Pipeline.ownSems0_eq_of_list c osem1 [0, 1, 2, 3, 4, 5, 6, 7] (by decide) (by decide)]; rfl

def Hop1 : Finset (Ref sig .tc) := {main_arg1}
theorem Hop1_sub : Hop1 ⊆ Pipeline.restRefs sig spec1 := by decide
theorem Hop1_subP : Hop1 ⊆ Pipeline.restRefsP sig pre1 spec1 := by decide

section Region1

variable (V : (c : Dev nD) → (b : Ref sig .tc) → Buf (Elt F) ((c : Thread nD τ).loc b))
variable (a : (pcfg1 (F := F)).Adm)

theorem hbmPts1_eq (c : Dev nD) :
    (bigSep Hop1 (fun b => ((c : Thread nD τ).loc b) ↦{fullShare} V c b) : sProp 𝕄) = iprop(hbPt c (V c main_arg1)) := by
  rw [BI.bigSep_eq_bigSepL_of_eq [main_arg1] (by decide) (by decide)]; rfl

abbrev tb1 : Vec F S53248 .i32 := a.1 0
abbrev tbM1 : Memref sig .tc .smem S53248 .i32 := Memref.whole main_v3
abbrev scM1 : Memref sig .tc .vmem S8x32 .f32 := Memref.whole cc1_scratch0

abbrev ms1 (t : Fin (cfg1 a).N) : Memref sig .tc .vmem S8x32 .f32 := spec1_0.stage ((cfg1 a).slots t 0)
abbrev hs1 (t : Fin (cfg1 a).N) : (ms1 a t).IsWhole := hstage1_0 (((cfg1 a).slots t 0).cast nbuf1_0)

abbrev bodyAt1 (t : Fin (cfg1 a).N) : Prog (TpuEff nD τ sig (Elt F) Λ₀ .tc) PUnit :=
  cc0__gather_kernel ((cfg1 a).grid.coords t) (Memref.whole main_v3) (Memref.isWhole_whole _) (Memref.whole main_arg1) (Memref.isWhole_whole _) (ms1 a t) (hs1 a t) (Memref.whole cc1_scratch0) (Memref.isWhole_whole _) cc1_scratch1

theorem prefHeld1_eq (c : Dev nD) :
    (Pipeline.prefHeld (Ix := Unit) (Name := ℕ) (U := Pipeline.UD sig nD τ) (Lvl := ℕ) pre1 c (fun _ => fullShare) a.1 : sProp 𝕄)
      = iprop(owns (c : Thread nD τ) tbM1 fullShare (tb1 a)) := by
  unfold Pipeline.prefHeld
  rw [bigSep_W1, owns_whole]
  rfl

theorem PhiD1_eq (c : Dev nD) :
    (Pipeline.ΦD osem1 spec1 Hop1 V c : sProp 𝕄)
      = iprop(iprop((∃ d, owns (c : Thread nD τ) scM1 fullShare d) ∗ Pipeline.scopedRestBut (Ix := Unit) (Name := ℕ) (U := Pipeline.UD sig nD τ) (Lvl := ℕ) (Val := Elt F) spec1 c [cc1_scratch0]) ∗ (∃ r, prngReg c r) ∗ semsAt c 12 13 14 15 16 17 18 19 ∗ iprop(hbPt c (V c main_arg1))) := by
  rw [Pipeline.ΦD_eq, Pipeline.scopedRest_split_of_list spec1 c [cc1_scratch0] (by decide) (by decide), ownSems10_eq, hbmPts1_eq]; simp only [scM1, owns_whole]; try rfl

variable (hH : ∀ t : Fin (cfg1 a).N, Hyp1 ((cfg1 a).grid.coords t) (tb1 a))

def outAt1 (c : Dev nD) (t : Fin (cfg1 a).N) : Vec F S8x32 .f32 :=
  out c ((cfg1 a).grid.coords t) (Memref.whole main_v3) (Memref.isWhole_whole _) (ms1 a t) (hs1 a t) (Memref.whole cc1_scratch0) (Memref.isWhole_whole _) (tb1 a) (V c main_arg1) (hH t)

def dat1 (c : Dev nD) : Dat τ (Elt F) Unit ℕ (Pipeline.UD sig nD τ) ℕ (cfg1 a) c where
  A w := V c (Pipeline.arrRef spec1 w)
  after w t := match w with
    | ⟨0, _⟩ => outAt1 V a hH c t
  Φ _ := iprop(Pipeline.ΦD osem1 spec1 Hop1 V c ∗ Pipeline.prefHeld (Ix := Unit) (Name := ℕ) (U := Pipeline.UD sig nD τ) (Lvl := ℕ) pre1 c (fun _ => fullShare) a.1)
  q _ := fullShare
  owed _ := 0

theorem A_eq1 (c : Dev nD) (w : Fin (cfg1 a).W) : (dat1 V a hH c).A w = V c (Pipeline.arrRef spec1 w) := by
  dsimp only [dat1]
theorem after1_0 (c : Dev nD) (t : Fin (cfg1 a).N) : (dat1 V a hH c).after 0 t = outAt1 V a hH c t := by dsimp only [dat1]; rfl

def bodyPre1 (c : Dev nD) (t : Fin (cfg1 a).N) : sProp 𝕄 :=
  iprop((dat1 V a hH c).Φ t.castSucc ∗ (dat1 V a hH c).owesAt () t.castSucc
    ∗ (∃ d, owns (c : Thread nD τ) (ms1 a t) fullShare ((dat1 V a hH c).before 0 t d)))

def bodyPost1 (c : Dev nD) (t : Fin (cfg1 a).N) : sProp 𝕄 :=
  iprop((dat1 V a hH c).Φ t.succ ∗ (dat1 V a hH c).owesAt () t.succ
    ∗ owns (c : Thread nD τ) (ms1 a t) fullShare ((dat1 V a hH c).after 0 t))

theorem sound_body1 (c : Dev nD) (t : Fin (cfg1 a).N) :
    bodyPre1 V a hH c t ⊢ wp frame (wpE (defs₀ (F := F)) Variants.none c none) Set.univ (bodyAt1 a t) (fun _ => bodyPost1 V a hH c t) := by
  unfold bodyPre1 bodyPost1 bodyAt1
  rw [show (dat1 V a hH c).Φ t.succ = (dat1 V a hH c).Φ t.castSucc from rfl, after1_0]
  rw [show (dat1 V a hH c).Φ t.castSucc = iprop(Pipeline.ΦD osem1 spec1 Hop1 V c ∗ Pipeline.prefHeld (Ix := Unit) (Name := ℕ) (U := Pipeline.UD sig nD τ) (Lvl := ℕ) pre1 c (fun _ => fullShare) a.1) from rfl,
    PhiD1_eq, prefHeld1_eq]
  unfold Dat.owesAt Pipeline.owesWithin
  rw [show (dat1 V a hH c).owed t.castSucc = 0 from rfl, show (dat1 V a hH c).owed t.succ = 0 from rfl]
  unfold outAt1 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun1 c ((cfg1 a).grid.coords t) (Memref.whole main_v3) (Memref.isWhole_whole _) (ms1 a t) (hs1 a t) (Memref.whole cc1_scratch0) (Memref.isWhole_whole _) (tb1 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation1 (c : Dev nD) : BodyObligation (dat1 (F := F) V a hH c) (defs₀ (F := F)) Variants.none () Set.univ := fun t => by
  rw [bigSep_W1, bigSep_W1]
  exact sound_body1 V a hH c t

end Region1

end Cert.Kernel.Hand

end
-- ==== Proof.K.Region2.lean ====
import proofs.«413815_j28827820491521_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp2 (i : grid0.Coords) (x0 : Vec F S53248 .i32) : Prop :=
  Hyp i (Memref.whole main_v5 : Memref sig .tc .smem S53248 .i32) (Memref.isWhole_whole _) x0

abbrev osem2 : Fin 8 → SemLoc sig := fun j => (![SemLoc.dma 22, SemLoc.dma 23, SemLoc.dma 24, SemLoc.dma 25, SemLoc.dma 26, SemLoc.dma 27, SemLoc.dma 28, SemLoc.dma 29] : Fin 8 → SemLoc sig) j
theorem ownSemFacts2 : Pipeline.OwnSemFacts spec2 osem2 := by decide
theorem ownSems20_eq (c : Dev nD) :
    (Pipeline.ownSems0 (Ix := Unit) (Name := ℕ) (U := Pipeline.UD sig nD τ) (Lvl := ℕ) (Val := Elt F) (τ := τ) osem2 c : sProp 𝕄)
      = semsAt c 22 23 24 25 26 27 28 29 := by
  rw [Pipeline.ownSems0_eq_of_list c osem2 [0, 1, 2, 3, 4, 5, 6, 7] (by decide) (by decide)]; rfl

def Hop2 : Finset (Ref sig .tc) := {main_arg1}
theorem Hop2_sub : Hop2 ⊆ Pipeline.restRefs sig spec2 := by decide
theorem Hop2_subP : Hop2 ⊆ Pipeline.restRefsP sig pre2 spec2 := by decide

section Region2

variable (V : (c : Dev nD) → (b : Ref sig .tc) → Buf (Elt F) ((c : Thread nD τ).loc b))
variable (a : (pcfg2 (F := F)).Adm)

theorem hbmPts2_eq (c : Dev nD) :
    (bigSep Hop2 (fun b => ((c : Thread nD τ).loc b) ↦{fullShare} V c b) : sProp 𝕄) = iprop(hbPt c (V c main_arg1)) := by
  rw [BI.bigSep_eq_bigSepL_of_eq [main_arg1] (by decide) (by decide)]; rfl

abbrev tb2 : Vec F S53248 .i32 := a.1 0
abbrev tbM2 : Memref sig .tc .smem S53248 .i32 := Memref.whole main_v5
abbrev scM2 : Memref sig .tc .vmem S8x32 .f32 := Memref.whole cc2_scratch0

abbrev ms2 (t : Fin (cfg2 a).N) : Memref sig .tc .vmem S8x32 .f32 := spec2_0.stage ((cfg2 a).slots t 0)
abbrev hs2 (t : Fin (cfg2 a).N) : (ms2 a t).IsWhole := hstage2_0 (((cfg2 a).slots t 0).cast nbuf2_0)

abbrev bodyAt2 (t : Fin (cfg2 a).N) : Prog (TpuEff nD τ sig (Elt F) Λ₀ .tc) PUnit :=
  cc0__gather_kernel ((cfg2 a).grid.coords t) (Memref.whole main_v5) (Memref.isWhole_whole _) (Memref.whole main_arg1) (Memref.isWhole_whole _) (ms2 a t) (hs2 a t) (Memref.whole cc2_scratch0) (Memref.isWhole_whole _) cc2_scratch1

theorem prefHeld2_eq (c : Dev nD) :
    (Pipeline.prefHeld (Ix := Unit) (Name := ℕ) (U := Pipeline.UD sig nD τ) (Lvl := ℕ) pre2 c (fun _ => fullShare) a.1 : sProp 𝕄)
      = iprop(owns (c : Thread nD τ) tbM2 fullShare (tb2 a)) := by
  unfold Pipeline.prefHeld
  rw [bigSep_W2, owns_whole]
  rfl

theorem PhiD2_eq (c : Dev nD) :
    (Pipeline.ΦD osem2 spec2 Hop2 V c : sProp 𝕄)
      = iprop(iprop((∃ d, owns (c : Thread nD τ) scM2 fullShare d) ∗ Pipeline.scopedRestBut (Ix := Unit) (Name := ℕ) (U := Pipeline.UD sig nD τ) (Lvl := ℕ) (Val := Elt F) spec2 c [cc2_scratch0]) ∗ (∃ r, prngReg c r) ∗ semsAt c 22 23 24 25 26 27 28 29 ∗ iprop(hbPt c (V c main_arg1))) := by
  rw [Pipeline.ΦD_eq, Pipeline.scopedRest_split_of_list spec2 c [cc2_scratch0] (by decide) (by decide), ownSems20_eq, hbmPts2_eq]; simp only [scM2, owns_whole]; try rfl

variable (hH : ∀ t : Fin (cfg2 a).N, Hyp2 ((cfg2 a).grid.coords t) (tb2 a))

def outAt2 (c : Dev nD) (t : Fin (cfg2 a).N) : Vec F S8x32 .f32 :=
  out c ((cfg2 a).grid.coords t) (Memref.whole main_v5) (Memref.isWhole_whole _) (ms2 a t) (hs2 a t) (Memref.whole cc2_scratch0) (Memref.isWhole_whole _) (tb2 a) (V c main_arg1) (hH t)

def dat2 (c : Dev nD) : Dat τ (Elt F) Unit ℕ (Pipeline.UD sig nD τ) ℕ (cfg2 a) c where
  A w := V c (Pipeline.arrRef spec2 w)
  after w t := match w with
    | ⟨0, _⟩ => outAt2 V a hH c t
  Φ _ := iprop(Pipeline.ΦD osem2 spec2 Hop2 V c ∗ Pipeline.prefHeld (Ix := Unit) (Name := ℕ) (U := Pipeline.UD sig nD τ) (Lvl := ℕ) pre2 c (fun _ => fullShare) a.1)
  q _ := fullShare
  owed _ := 0

theorem A_eq2 (c : Dev nD) (w : Fin (cfg2 a).W) : (dat2 V a hH c).A w = V c (Pipeline.arrRef spec2 w) := by
  dsimp only [dat2]
theorem after2_0 (c : Dev nD) (t : Fin (cfg2 a).N) : (dat2 V a hH c).after 0 t = outAt2 V a hH c t := by dsimp only [dat2]; rfl

def bodyPre2 (c : Dev nD) (t : Fin (cfg2 a).N) : sProp 𝕄 :=
  iprop((dat2 V a hH c).Φ t.castSucc ∗ (dat2 V a hH c).owesAt () t.castSucc
    ∗ (∃ d, owns (c : Thread nD τ) (ms2 a t) fullShare ((dat2 V a hH c).before 0 t d)))

def bodyPost2 (c : Dev nD) (t : Fin (cfg2 a).N) : sProp 𝕄 :=
  iprop((dat2 V a hH c).Φ t.succ ∗ (dat2 V a hH c).owesAt () t.succ
    ∗ owns (c : Thread nD τ) (ms2 a t) fullShare ((dat2 V a hH c).after 0 t))

theorem sound_body2 (c : Dev nD) (t : Fin (cfg2 a).N) :
    bodyPre2 V a hH c t ⊢ wp frame (wpE (defs₀ (F := F)) Variants.none c none) Set.univ (bodyAt2 a t) (fun _ => bodyPost2 V a hH c t) := by
  unfold bodyPre2 bodyPost2 bodyAt2
  rw [show (dat2 V a hH c).Φ t.succ = (dat2 V a hH c).Φ t.castSucc from rfl, after2_0]
  rw [show (dat2 V a hH c).Φ t.castSucc = iprop(Pipeline.ΦD osem2 spec2 Hop2 V c ∗ Pipeline.prefHeld (Ix := Unit) (Name := ℕ) (U := Pipeline.UD sig nD τ) (Lvl := ℕ) pre2 c (fun _ => fullShare) a.1) from rfl,
    PhiD2_eq, prefHeld2_eq]
  unfold Dat.owesAt Pipeline.owesWithin
  rw [show (dat2 V a hH c).owed t.castSucc = 0 from rfl, show (dat2 V a hH c).owed t.succ = 0 from rfl]
  unfold outAt2 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun2 c ((cfg2 a).grid.coords t) (Memref.whole main_v5) (Memref.isWhole_whole _) (ms2 a t) (hs2 a t) (Memref.whole cc2_scratch0) (Memref.isWhole_whole _) (tb2 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation2 (c : Dev nD) : BodyObligation (dat2 (F := F) V a hH c) (defs₀ (F := F)) Variants.none () Set.univ := fun t => by
  rw [bigSep_W2, bigSep_W2]
  exact sound_body2 V a hH c t

end Region2

end Cert.Kernel.Hand

end
-- ==== Proof.K.Region3.lean ====
import proofs.«413815_j28827820491521_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp3 (i : grid0.Coords) (x0 : Vec F S53248 .i32) : Prop :=
  Hyp i (Memref.whole main_v7 : Memref sig .tc .smem S53248 .i32) (Memref.isWhole_whole _) x0

abbrev osem3 : Fin 8 → SemLoc sig := fun j => (![SemLoc.dma 32, SemLoc.dma 33, SemLoc.dma 34, SemLoc.dma 35, SemLoc.dma 36, SemLoc.dma 37, SemLoc.dma 38, SemLoc.dma 39] : Fin 8 → SemLoc sig) j
theorem ownSemFacts3 : Pipeline.OwnSemFacts spec3 osem3 := by decide
theorem ownSems30_eq (c : Dev nD) :
    (Pipeline.ownSems0 (Ix := Unit) (Name := ℕ) (U := Pipeline.UD sig nD τ) (Lvl := ℕ) (Val := Elt F) (τ := τ) osem3 c : sProp 𝕄)
      = semsAt c 32 33 34 35 36 37 38 39 := by
  rw [Pipeline.ownSems0_eq_of_list c osem3 [0, 1, 2, 3, 4, 5, 6, 7] (by decide) (by decide)]; rfl

def Hop3 : Finset (Ref sig .tc) := {main_arg1}
theorem Hop3_sub : Hop3 ⊆ Pipeline.restRefs sig spec3 := by decide
theorem Hop3_subP : Hop3 ⊆ Pipeline.restRefsP sig pre3 spec3 := by decide

section Region3

variable (V : (c : Dev nD) → (b : Ref sig .tc) → Buf (Elt F) ((c : Thread nD τ).loc b))
variable (a : (pcfg3 (F := F)).Adm)

theorem hbmPts3_eq (c : Dev nD) :
    (bigSep Hop3 (fun b => ((c : Thread nD τ).loc b) ↦{fullShare} V c b) : sProp 𝕄) = iprop(hbPt c (V c main_arg1)) := by
  rw [BI.bigSep_eq_bigSepL_of_eq [main_arg1] (by decide) (by decide)]; rfl

abbrev tb3 : Vec F S53248 .i32 := a.1 0
abbrev tbM3 : Memref sig .tc .smem S53248 .i32 := Memref.whole main_v7
abbrev scM3 : Memref sig .tc .vmem S8x32 .f32 := Memref.whole cc3_scratch0

abbrev ms3 (t : Fin (cfg3 a).N) : Memref sig .tc .vmem S8x32 .f32 := spec3_0.stage ((cfg3 a).slots t 0)
abbrev hs3 (t : Fin (cfg3 a).N) : (ms3 a t).IsWhole := hstage3_0 (((cfg3 a).slots t 0).cast nbuf3_0)

abbrev bodyAt3 (t : Fin (cfg3 a).N) : Prog (TpuEff nD τ sig (Elt F) Λ₀ .tc) PUnit :=
  cc0__gather_kernel ((cfg3 a).grid.coords t) (Memref.whole main_v7) (Memref.isWhole_whole _) (Memref.whole main_arg1) (Memref.isWhole_whole _) (ms3 a t) (hs3 a t) (Memref.whole cc3_scratch0) (Memref.isWhole_whole _) cc3_scratch1

theorem prefHeld3_eq (c : Dev nD) :
    (Pipeline.prefHeld (Ix := Unit) (Name := ℕ) (U := Pipeline.UD sig nD τ) (Lvl := ℕ) pre3 c (fun _ => fullShare) a.1 : sProp 𝕄)
      = iprop(owns (c : Thread nD τ) tbM3 fullShare (tb3 a)) := by
  unfold Pipeline.prefHeld
  rw [bigSep_W3, owns_whole]
  rfl

theorem PhiD3_eq (c : Dev nD) :
    (Pipeline.ΦD osem3 spec3 Hop3 V c : sProp 𝕄)
      = iprop(iprop((∃ d, owns (c : Thread nD τ) scM3 fullShare d) ∗ Pipeline.scopedRestBut (Ix := Unit) (Name := ℕ) (U := Pipeline.UD sig nD τ) (Lvl := ℕ) (Val := Elt F) spec3 c [cc3_scratch0]) ∗ (∃ r, prngReg c r) ∗ semsAt c 32 33 34 35 36 37 38 39 ∗ iprop(hbPt c (V c main_arg1))) := by
  rw [Pipeline.ΦD_eq, Pipeline.scopedRest_split_of_list spec3 c [cc3_scratch0] (by decide) (by decide), ownSems30_eq, hbmPts3_eq]; simp only [scM3, owns_whole]; try rfl

variable (hH : ∀ t : Fin (cfg3 a).N, Hyp3 ((cfg3 a).grid.coords t) (tb3 a))

def outAt3 (c : Dev nD) (t : Fin (cfg3 a).N) : Vec F S8x32 .f32 :=
  out c ((cfg3 a).grid.coords t) (Memref.whole main_v7) (Memref.isWhole_whole _) (ms3 a t) (hs3 a t) (Memref.whole cc3_scratch0) (Memref.isWhole_whole _) (tb3 a) (V c main_arg1) (hH t)

def dat3 (c : Dev nD) : Dat τ (Elt F) Unit ℕ (Pipeline.UD sig nD τ) ℕ (cfg3 a) c where
  A w := V c (Pipeline.arrRef spec3 w)
  after w t := match w with
    | ⟨0, _⟩ => outAt3 V a hH c t
  Φ _ := iprop(Pipeline.ΦD osem3 spec3 Hop3 V c ∗ Pipeline.prefHeld (Ix := Unit) (Name := ℕ) (U := Pipeline.UD sig nD τ) (Lvl := ℕ) pre3 c (fun _ => fullShare) a.1)
  q _ := fullShare
  owed _ := 0

theorem A_eq3 (c : Dev nD) (w : Fin (cfg3 a).W) : (dat3 V a hH c).A w = V c (Pipeline.arrRef spec3 w) := by
  dsimp only [dat3]
theorem after3_0 (c : Dev nD) (t : Fin (cfg3 a).N) : (dat3 V a hH c).after 0 t = outAt3 V a hH c t := by dsimp only [dat3]; rfl

def bodyPre3 (c : Dev nD) (t : Fin (cfg3 a).N) : sProp 𝕄 :=
  iprop((dat3 V a hH c).Φ t.castSucc ∗ (dat3 V a hH c).owesAt () t.castSucc
    ∗ (∃ d, owns (c : Thread nD τ) (ms3 a t) fullShare ((dat3 V a hH c).before 0 t d)))

def bodyPost3 (c : Dev nD) (t : Fin (cfg3 a).N) : sProp 𝕄 :=
  iprop((dat3 V a hH c).Φ t.succ ∗ (dat3 V a hH c).owesAt () t.succ
    ∗ owns (c : Thread nD τ) (ms3 a t) fullShare ((dat3 V a hH c).after 0 t))

theorem sound_body3 (c : Dev nD) (t : Fin (cfg3 a).N) :
    bodyPre3 V a hH c t ⊢ wp frame (wpE (defs₀ (F := F)) Variants.none c none) Set.univ (bodyAt3 a t) (fun _ => bodyPost3 V a hH c t) := by
  unfold bodyPre3 bodyPost3 bodyAt3
  rw [show (dat3 V a hH c).Φ t.succ = (dat3 V a hH c).Φ t.castSucc from rfl, after3_0]
  rw [show (dat3 V a hH c).Φ t.castSucc = iprop(Pipeline.ΦD osem3 spec3 Hop3 V c ∗ Pipeline.prefHeld (Ix := Unit) (Name := ℕ) (U := Pipeline.UD sig nD τ) (Lvl := ℕ) pre3 c (fun _ => fullShare) a.1) from rfl,
    PhiD3_eq, prefHeld3_eq]
  unfold Dat.owesAt Pipeline.owesWithin
  rw [show (dat3 V a hH c).owed t.castSucc = 0 from rfl, show (dat3 V a hH c).owed t.succ = 0 from rfl]
  unfold outAt3 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun3 c ((cfg3 a).grid.coords t) (Memref.whole main_v7) (Memref.isWhole_whole _) (ms3 a t) (hs3 a t) (Memref.whole cc3_scratch0) (Memref.isWhole_whole _) (tb3 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation3 (c : Dev nD) : BodyObligation (dat3 (F := F) V a hH c) (defs₀ (F := F)) Variants.none () Set.univ := fun t => by
  rw [bigSep_W3, bigSep_W3]
  exact sound_body3 V a hH c t

end Region3

end Cert.Kernel.Hand

end
-- ==== Proof.K.Hyp.lean ====
import proofs.«413815_j28827820491521_2_alg».proof.Proof.K.Run
import Idealize.ShloMosaic.Lib.ValueIdx

set_option maxRecDepth 16384

noncomputable section

namespace Cert.Kernel.Hand

open Cert.Kernel Cert.Kernel.Gen
open Idealize.ShloMosaic Idealize.ShloMosaic.TcCoe

variable {F : FTy → Type} [FloatOps F]

variable (arg1 : Memref sig .tc .smem S53248 .i32) (harg1 : arg1.IsWhole) (x0 : Vec F S53248 .i32)

/-- A one-word load at offset `n` reads entry `n` of the table: the rectangle has unit stride and its only index is 0. -/
theorem word_at (off : Fin 1 → Nat) (inb : ∀ a, off a + S1.size a ≤ S53248.size a) (n : Nat) (hn : n < 53248) (hoff : off 0 = n) :
    wordAt arg1 harg1 x0 off inb = x0 (ValueIdx.ix1 (n := 53248) ⟨n, hn⟩) := by
  show arg1.view.readAt (Elt F) _ (harg1.unread x0) _ = _
  rw [View.readAt_apply, Memref.IsWhole.read_unread]
  congr 1
  funext a
  apply Fin.ext
  match a with
  | ⟨0, _⟩ => show off 0 + 1 * 0 = n; omega

/-- For m < 6656 and k < 8, 8 m + k < 2^32, so the 32-bit product and sum are the natural-number ones. -/
theorem off_nowrap (m k : Nat) (hm : m < 6656) (hk : k < 8) :
    (Scalar.indexCast (Scalar.addi (Scalar.muli (BitVec.ofNat 32 m) 8#32) (BitVec.ofNat 32 k))).toNat = 8 * m + k := by
  show (BitVec.ofNat 32 m * 8#32 + BitVec.ofNat 32 k).toNat = 8 * m + k
  rw [BitVec.toNat_add, BitVec.toNat_mul, BitVec.toNat_ofNat, BitVec.toNat_ofNat, BitVec.toNat_ofNat]
  omega

/-- A word names a row of the big table exactly when it is below 1,000,000. -/
theorem row_fits_iff (v : BitVec 32) :
    (∀ a, (![v.toNat, 0] : Fin 2 → Nat) a + S1x32.size a ≤ S1000000x32.size a) ↔ v.toNat < 1000000 := by
  constructor
  · intro h
    have h0 : v.toNat + 1 ≤ 1000000 := h (0 : Fin 2)
    omega
  · intro hv a
    match a with
    | ⟨0, _⟩ => show v.toNat + 1 ≤ 1000000; omega
    | ⟨1, _⟩ => show 0 + 32 ≤ 32; omega

variable (i : grid0.Coords)

/-- The word read at offset 8 i + k is entry 8 i + k of the table, so its row check is that entry's range. -/
theorem fits_iff (k : Nat) (hk : k < 8) (off : Fin 1 → Nat) (inb : ∀ a, off a + S1.size a ≤ S53248.size a)
    (hoff : off 0 = 8 * (i 0).val + k) (hi : 8 * (i 0).val + k < 53248) :
    (∀ a, (![(wordAt arg1 harg1 x0 off inb).toNat, 0] : Fin 2 → Nat) a + S1x32.size a ≤ S1000000x32.size a)
      ↔ (x0 (ValueIdx.ix1 (n := 53248) ⟨8 * (i 0).val + k, hi⟩)).toNat < 1000000 := by
  rw [row_fits_iff, word_at arg1 harg1 x0 off inb _ hi hoff]

/-- If every word of the table is below 1,000,000, the eight words point `i` reads pass their checks. -/
theorem hyp_of (h : ∀ r : Fin 53248, (x0 (ValueIdx.ix1 (n := 53248) r)).toNat < 1000000) : Hyp i arg1 harg1 x0 := by
  have hv : (i 0).val < 6656 := (i 0).isLt
  have key (k : Nat) (hk : k < 8) (off : Fin 1 → Nat) (inb : ∀ a, off a + S1.size a ≤ S53248.size a) (hoff : off 0 = 8 * (i 0).val + k) :=
    (fits_iff arg1 harg1 x0 i k hk off inb hoff (by omega)).mpr (h _)
  exact ⟨⟨key 0 (by omega) (k0_off1 i) _ (off_nowrap _ 0 hv (by omega)), key 0 (by omega) (k0_off1 i) _ (off_nowrap _ 0 hv (by omega))⟩,
    ⟨key 1 (by omega) (k0_off3 i) _ (off_nowrap _ 1 hv (by omega)), key 1 (by omega) (k0_off3 i) _ (off_nowrap _ 1 hv (by omega))⟩,
    ⟨key 2 (by omega) (k0_off5 i) _ (off_nowrap _ 2 hv (by omega)), key 2 (by omega) (k0_off5 i) _ (off_nowrap _ 2 hv (by omega))⟩,
    ⟨key 3 (by omega) (k0_off7 i) _ (off_nowrap _ 3 hv (by omega)), key 3 (by omega) (k0_off7 i) _ (off_nowrap _ 3 hv (by omega))⟩,
    ⟨key 4 (by omega) (k0_off9 i) _ (off_nowrap _ 4 hv (by omega)), key 4 (by omega) (k0_off9 i) _ (off_nowrap _ 4 hv (by omega))⟩,
    ⟨key 5 (by omega) (k0_off11 i) _ (off_nowrap _ 5 hv (by omega)), key 5 (by omega) (k0_off11 i) _ (off_nowrap _ 5 hv (by omega))⟩,
    ⟨key 6 (by omega) (k0_off13 i) _ (off_nowrap _ 6 hv (by omega)), key 6 (by omega) (k0_off13 i) _ (off_nowrap _ 6 hv (by omega))⟩,
    key 7 (by omega) (k0_off15 i) _ (off_nowrap _ 7 hv (by omega))⟩

/-- Conversely, the words point `i` reads, entries 8 i … 8 i + 7 of the table, are below 1,000,000 when they pass their checks. -/
theorem rows_lt (h : Hyp i arg1 harg1 x0) (j : Fin 8) (hi : 8 * (i 0).val + j.val < 53248) :
    (x0 (ValueIdx.ix1 (n := 53248) ⟨8 * (i 0).val + j.val, hi⟩)).toNat < 1000000 := by
  have hv : (i 0).val < 6656 := (i 0).isLt
  match j, hi with
  | ⟨0, _⟩, hi => exact (fits_iff arg1 harg1 x0 i 0 (by omega) (k0_off1 i) _ (off_nowrap _ 0 hv (by omega)) hi).mp h.1.1
  | ⟨1, _⟩, hi => exact (fits_iff arg1 harg1 x0 i 1 (by omega) (k0_off3 i) _ (off_nowrap _ 1 hv (by omega)) hi).mp h.2.1.1
  | ⟨2, _⟩, hi => exact (fits_iff arg1 harg1 x0 i 2 (by omega) (k0_off5 i) _ (off_nowrap _ 2 hv (by omega)) hi).mp h.2.2.1.1
  | ⟨3, _⟩, hi => exact (fits_iff arg1 harg1 x0 i 3 (by omega) (k0_off7 i) _ (off_nowrap _ 3 hv (by omega)) hi).mp h.2.2.2.1.1
  | ⟨4, _⟩, hi => exact (fits_iff arg1 harg1 x0 i 4 (by omega) (k0_off9 i) _ (off_nowrap _ 4 hv (by omega)) hi).mp h.2.2.2.2.1.1
  | ⟨5, _⟩, hi => exact (fits_iff arg1 harg1 x0 i 5 (by omega) (k0_off11 i) _ (off_nowrap _ 5 hv (by omega)) hi).mp h.2.2.2.2.2.1.1
  | ⟨6, _⟩, hi => exact (fits_iff arg1 harg1 x0 i 6 (by omega) (k0_off13 i) _ (off_nowrap _ 6 hv (by omega)) hi).mp h.2.2.2.2.2.2.1.1
  | ⟨7, _⟩, hi => exact (fits_iff arg1 harg1 x0 i 7 (by omega) (k0_off15 i) _ (off_nowrap _ 7 hv (by omega)) hi).mp h.2.2.2.2.2.2.2

end Cert.Kernel.Hand

end
-- ==== Proof.Spec.lean ====
import Idealize.ShloMosaic.PureOps.Ideal
import Idealize.ShloMosaic.Lib.ValueIdx

namespace Cert.Spec

open Idealize.ShloMosaic Idealize.ShloMosaic.ValueIdx

abbrev SIds : Shape := ⟨3, ![4096, 26, 2]⟩
abbrev STab : Shape := ⟨2, ![1000000, 32]⟩
abbrev SOut : Shape := ⟨4, ![4096, 26, 2, 32]⟩

def InRange (ids : IVec SIds 32) : Prop := ∀ i : SIds.Idx, (ids i).toNat < 1000000

def rowOf (w : BitVec 32) : Fin 1000000 := ⟨w.toNat % 1000000, Nat.mod_lt _ (by decide)⟩

theorem rowOf_val_of_lt (w : BitVec 32) (h : w.toNat < 1000000) : (rowOf w).val = w.toNat := Nat.mod_eq_of_lt h

def idOf (y : SOut.Idx) : SIds.Idx :=
  ix3 (n0 := 4096) (n1 := 26) (n2 := 2) ⟨(y 0).val, (y 0).isLt⟩ ⟨(y 1).val, (y 1).isLt⟩ ⟨(y 2).val, (y 2).isLt⟩

def rows {α : Type} (ids : IVec SIds 32) (tab : STab.Idx → α) : SOut.Idx → α :=
  fun y => tab (ix2 (rowOf (ids (idOf y))) (⟨(y 3).val, (y 3).isLt⟩ : Fin 32))

end Cert.Spec
-- ==== Proof.K.KernelTerm.lean ====
import proofs.«413815_j28827820491521_2_alg».proof.Kernel
import proofs.«413815_j28827820491521_2_alg».proof.Proof.Spec

noncomputable section

namespace Cert.Kernel.KTerm

open Idealize.ShloMosaic Cert.Kernel
open Cert.Kernel.Facts₀ Cert.Kernel.Facts

variable {F : FTy → Type} [FloatOps F] [Cert.Kernel.Facts]

def flatIds (ids : IVec S4096x26x2 32) : IVec S212992 32 := shapeCast S212992 ids shapeCasts_S4096x26x2_S212992

def tbl0 (ids : IVec S4096x26x2 32) : IVec S53248 32 := extractStridedSlice S53248 ![0] (flatIds ids) slices_S212992_S53248_0
def tbl1 (ids : IVec S4096x26x2 32) : IVec S53248 32 := extractStridedSlice S53248 ![53248] (flatIds ids) slices_S212992_S53248_53248
def tbl2 (ids : IVec S4096x26x2 32) : IVec S53248 32 := extractStridedSlice S53248 ![106496] (flatIds ids) slices_S212992_S53248_106496
def tbl3 (ids : IVec S4096x26x2 32) : IVec S53248 32 := extractStridedSlice S53248 ![159744] (flatIds ids) slices_S212992_S53248_159744

def assemble (o0 o1 o2 o3 : FVec F S53248x32 .f32) : FVec F S4096x26x2x32 .f32 :=
  shapeCast S4096x26x2x32
    (concatenate S212992x32 0 [⟨S53248x32, o0⟩, ⟨S53248x32, o1⟩, ⟨S53248x32, o2⟩, ⟨S53248x32, o3⟩]
      concatenates_S53248x32_S53248x32_S53248x32_S53248x32_S212992x32_d0)
    shapeCasts_S212992x32_S4096x26x2x32

def gathered (tbl : IVec S53248 32) (tab : FVec F S1000000x32 .f32) : FVec F S53248x32 .f32 :=
  fun y => tab (ValueIdx.ix2 (Cert.Spec.rowOf (tbl (ValueIdx.ix1 (n := 53248) ⟨(y 0).val, (y 0).isLt⟩))) (⟨(y 1).val, (y 1).isLt⟩ : Fin 32))

end Cert.Kernel.KTerm

end
-- ==== Proof.K.TblRange.lean ====
import proofs.«413815_j28827820491521_2_alg».proof.Proof.Gen.Kernel
import proofs.«413815_j28827820491521_2_alg».proof.Proof.K.KernelTerm
import proofs.«413815_j28827820491521_2_alg».proof.Proof.Spec
import Idealize.ShloMosaic.Lib.ValueIdx
import Idealize.ShloMosaic.Lib.Pipeline.Value

noncomputable section

namespace Cert.Kernel.KValue

open Idealize.ShloMosaic Cert.Kernel Cert.Kernel.Gen

theorem slice_word_lt (ids : IVec S4096x26x2 32) (hin : Cert.Spec.InRange ids)
    (off : Fin S212992.rank → Nat) (h : S212992.Slices off S53248) (hoff : off 0 + 53248 ≤ 212992) (q : S53248.Idx) :
    (extractStridedSlice S53248 off (KTerm.flatIds ids) h q).toNat < 1000000 := by
  have hq : (q 0).val < 53248 := (q 0).isLt
  have hp : off 0 + (q 0).val < 212992 := by omega
  let k : S212992.Idx := ValueIdx.ix1 (n := 212992) ⟨off 0 + (q 0).val, hp⟩
  have e1 : extractStridedSlice S53248 off (KTerm.flatIds ids) h q = KTerm.flatIds ids k := by
    refine extractStridedSlice_apply off (KTerm.flatIds ids) h q k fun a => ?_
    match a with
    | ⟨0, _⟩ => rfl
  have hb : (off 0 + (q 0).val) / 52 < 4096 := by omega
  have hs : (off 0 + (q 0).val) / 2 % 26 < 26 := Nat.mod_lt _ (by decide)
  have hj : (off 0 + (q 0).val) % 2 < 2 := Nat.mod_lt _ (by decide)
  have e2 : KTerm.flatIds ids k = ids (ValueIdx.ix3 (n0 := 4096) (n1 := 26) (n2 := 2) ⟨_, hb⟩ ⟨_, hs⟩ ⟨_, hj⟩) := by
    unfold KTerm.flatIds
    refine shapeCast_apply ids _ k _ ?_
    rw [Shape.rowMajor_val_one, Shape.rowMajor_val_three]
    show ((off 0 + (q 0).val) / 52 * 26 + (off 0 + (q 0).val) / 2 % 26) * 2 + (off 0 + (q 0).val) % 2 = off 0 + (q 0).val
    omega
  rw [e1, e2]
  exact hin _

theorem tbl0_lt (ids : IVec S4096x26x2 32) (hin : Cert.Spec.InRange ids) (r : Fin 53248) :
    (KTerm.tbl0 ids (ValueIdx.ix1 (n := 53248) r)).toNat < 1000000 :=
  slice_word_lt ids hin _ _ (by decide) _
theorem tbl1_lt (ids : IVec S4096x26x2 32) (hin : Cert.Spec.InRange ids) (r : Fin 53248) :
    (KTerm.tbl1 ids (ValueIdx.ix1 (n := 53248) r)).toNat < 1000000 :=
  slice_word_lt ids hin _ _ (by decide) _
theorem tbl2_lt (ids : IVec S4096x26x2 32) (hin : Cert.Spec.InRange ids) (r : Fin 53248) :
    (KTerm.tbl2 ids (ValueIdx.ix1 (n := 53248) r)).toNat < 1000000 :=
  slice_word_lt ids hin _ _ (by decide) _
theorem tbl3_lt (ids : IVec S4096x26x2 32) (hin : Cert.Spec.InRange ids) (r : Fin 53248) :
    (KTerm.tbl3 ids (ValueIdx.ix1 (n := 53248) r)).toNat < 1000000 :=
  slice_word_lt ids hin _ _ (by decide) _

end Cert.Kernel.KValue

end
-- ==== Proof.K.Stages.lean ====
import proofs.«413815_j28827820491521_2_alg».proof.Proof.K.Region0
import proofs.«413815_j28827820491521_2_alg».proof.Proof.K.Region1
import proofs.«413815_j28827820491521_2_alg».proof.Proof.K.Region2
import proofs.«413815_j28827820491521_2_alg».proof.Proof.K.Region3
import proofs.«413815_j28827820491521_2_alg».proof.Proof.K.Hyp
import proofs.«413815_j28827820491521_2_alg».proof.Proof.K.TblRange
import proofs.«413815_j28827820491521_2_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev c0 : Dev nD := ⟨0, Nat.one_pos⟩
theorem eq_c0 (c : Dev nD) : c = c0 := Subsingleton.elim _ _

variable (m : (ℓ : Loc nD τ sig) → Buf (Elt F) ℓ)

abbrev HIn : Prop := ∀ c : Dev nD, Cert.Spec.InRange (m ((c : Thread nD τ).loc main_arg0))

abbrev U1 (c : Dev nD) : Valuation τ sig (Elt F) := V1 m c

abbrev U1r (c : Dev nD) : (b : Ref sig .tc) → Buf (Elt F) ((c : Thread nD τ).loc b) := fun b => U1 m c b

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

def a0 (hin : HIn m) : (pcfg0 (F := F)).Adm := ⟨fun k => U1 m c0 (pre0.ref k), trivial⟩

theorem tb0_eq (hin : HIn m) : tb0 (a0 m hin) = KTerm.tbl0 (m ((c0 : Thread nD τ).loc main_arg0)) := by
  show U1 m c0 main_v1 = _
  show StableHlo.after hostOps0 (fun b => m (c0, b)) (Proc.devRef .tc main_v1) = _
  after_results; rfl

theorem hH0 (hin : HIn m) (t : Fin (cfg0 (a0 m hin)).N) : Hyp0 ((cfg0 (a0 m hin)).grid.coords t) (tb0 (a0 m hin)) :=
  hyp_of _ _ _ _ (fun r => by rw [tb0_eq]; exact KValue.tbl0_lt _ (hin c0) r)

def d0 (hin : HIn m) (c : Dev nD) : Dat τ (Elt F) Unit ℕ (Pipeline.UD sig nD τ) ℕ (cfg0 (a0 m hin)) c :=
  dat0 (fun c b => U1 m c b) (a0 m hin) (hH0 m hin) c

def o2 (hin : HIn m) (c : Dev nD) : Buf (Elt F) ((c : Thread nD τ).loc main_v2) := (d0 m hin c).arrAt 0 (cfg0 (a0 m hin)).N

def U2 (hin : HIn m) (c : Dev nD) : Valuation τ sig (Elt F) := Function.update (U1 m c) main_v2 (o2 m hin c)
abbrev U2r (hin : HIn m) (c : Dev nD) : (b : Ref sig .tc) → Buf (Elt F) ((c : Thread nD τ).loc b) := fun b => U2 m hin c b

def U3 (hin : HIn m) (c : Dev nD) : Valuation τ sig (Elt F) := StableHlo.after hostOps1 (U2 m hin c)
abbrev U3r (hin : HIn m) (c : Dev nD) : (b : Ref sig .tc) → Buf (Elt F) ((c : Thread nD τ).loc b) := fun b => U3 m hin c b

theorem U2_self (hin : HIn m) (c : Dev nD) : U2 m hin c main_v2 = o2 m hin c := by
  unfold U2; exact Function.update_self ..
theorem U2_of (hin : HIn m) (c : Dev nD) (r : Ref sig .tc) (h : r ≠ main_v2) : U2 m hin c r = U1 m c r := by
  unfold U2; exact Function.update_of_ne (StableHlo.devRef_ne_of_ne h) _ _

theorem U2_v0 (hin : HIn m) : U2 m hin c0 main_v0 = U1 m c0 main_v0 := by
  rw [U2_of m hin c0 main_v0 (by decide)]

def a1 (hin : HIn m) : (pcfg1 (F := F)).Adm := ⟨fun k => U3 m hin c0 (pre1.ref k), trivial⟩

theorem tb1_eq (hin : HIn m) : tb1 (a1 m hin) = KTerm.tbl1 (m ((c0 : Thread nD τ).loc main_arg0)) := by
  show U3 m hin c0 main_v3 = _
  show StableHlo.after hostOps1 (U2 m hin c0) (Proc.devRef .tc main_v3) = _
  after_results
  rw [U2_v0]; rfl

theorem hH1 (hin : HIn m) (t : Fin (cfg1 (a1 m hin)).N) : Hyp1 ((cfg1 (a1 m hin)).grid.coords t) (tb1 (a1 m hin)) :=
  hyp_of _ _ _ _ (fun r => by rw [tb1_eq]; exact KValue.tbl1_lt _ (hin c0) r)

def d1 (hin : HIn m) (c : Dev nD) : Dat τ (Elt F) Unit ℕ (Pipeline.UD sig nD τ) ℕ (cfg1 (a1 m hin)) c :=
  dat1 (fun c b => U3 m hin c b) (a1 m hin) (hH1 m hin) c

def o4 (hin : HIn m) (c : Dev nD) : Buf (Elt F) ((c : Thread nD τ).loc main_v4) := (d1 m hin c).arrAt 0 (cfg1 (a1 m hin)).N

def U4 (hin : HIn m) (c : Dev nD) : Valuation τ sig (Elt F) := Function.update (U3 m hin c) main_v4 (o4 m hin c)
abbrev U4r (hin : HIn m) (c : Dev nD) : (b : Ref sig .tc) → Buf (Elt F) ((c : Thread nD τ).loc b) := fun b => U4 m hin c b

def U5 (hin : HIn m) (c : Dev nD) : Valuation τ sig (Elt F) := StableHlo.after hostOps2 (U4 m hin c)
abbrev U5r (hin : HIn m) (c : Dev nD) : (b : Ref sig .tc) → Buf (Elt F) ((c : Thread nD τ).loc b) := fun b => U5 m hin c b

theorem U4_self (hin : HIn m) (c : Dev nD) : U4 m hin c main_v4 = o4 m hin c := by
  unfold U4; exact Function.update_self ..
theorem U4_of (hin : HIn m) (c : Dev nD) (r : Ref sig .tc) (h : r ≠ main_v4) : U4 m hin c r = U3 m hin c r := by
  unfold U4; exact Function.update_of_ne (StableHlo.devRef_ne_of_ne h) _ _

theorem U4_v0 (hin : HIn m) : U4 m hin c0 main_v0 = U1 m c0 main_v0 := by
  rw [U4_of m hin c0 main_v0 (by decide)]
  show StableHlo.after hostOps1 (U2 m hin c0) (Proc.devRef .tc main_v0) = _
  rw [StableHlo.after_of_writes_sub hostOps1 _ hostOps1_writes (by decide : main_v0 ∉ hostOps1_W)]
  exact U2_v0 m hin

def a2 (hin : HIn m) : (pcfg2 (F := F)).Adm := ⟨fun k => U5 m hin c0 (pre2.ref k), trivial⟩

theorem tb2_eq (hin : HIn m) : tb2 (a2 m hin) = KTerm.tbl2 (m ((c0 : Thread nD τ).loc main_arg0)) := by
  show U5 m hin c0 main_v5 = _
  show StableHlo.after hostOps2 (U4 m hin c0) (Proc.devRef .tc main_v5) = _
  after_results
  rw [U4_v0]; rfl

theorem hH2 (hin : HIn m) (t : Fin (cfg2 (a2 m hin)).N) : Hyp2 ((cfg2 (a2 m hin)).grid.coords t) (tb2 (a2 m hin)) :=
  hyp_of _ _ _ _ (fun r => by rw [tb2_eq]; exact KValue.tbl2_lt _ (hin c0) r)

def d2 (hin : HIn m) (c : Dev nD) : Dat τ (Elt F) Unit ℕ (Pipeline.UD sig nD τ) ℕ (cfg2 (a2 m hin)) c :=
  dat2 (fun c b => U5 m hin c b) (a2 m hin) (hH2 m hin) c

def o6 (hin : HIn m) (c : Dev nD) : Buf (Elt F) ((c : Thread nD τ).loc main_v6) := (d2 m hin c).arrAt 0 (cfg2 (a2 m hin)).N

def U6 (hin : HIn m) (c : Dev nD) : Valuation τ sig (Elt F) := Function.update (U5 m hin c) main_v6 (o6 m hin c)
abbrev U6r (hin : HIn m) (c : Dev nD) : (b : Ref sig .tc) → Buf (Elt F) ((c : Thread nD τ).loc b) := fun b => U6 m hin c b

def U7 (hin : HIn m) (c : Dev nD) : Valuation τ sig (Elt F) := StableHlo.after hostOps3 (U6 m hin c)
abbrev U7r (hin : HIn m) (c : Dev nD) : (b : Ref sig .tc) → Buf (Elt F) ((c : Thread nD τ).loc b) := fun b => U7 m hin c b

theorem U6_self (hin : HIn m) (c : Dev nD) : U6 m hin c main_v6 = o6 m hin c := by
  unfold U6; exact Function.update_self ..
theorem U6_of (hin : HIn m) (c : Dev nD) (r : Ref sig .tc) (h : r ≠ main_v6) : U6 m hin c r = U5 m hin c r := by
  unfold U6; exact Function.update_of_ne (StableHlo.devRef_ne_of_ne h) _ _

theorem U6_v0 (hin : HIn m) : U6 m hin c0 main_v0 = U1 m c0 main_v0 := by
  rw [U6_of m hin c0 main_v0 (by decide)]
  show StableHlo.after hostOps2 (U4 m hin c0) (Proc.devRef .tc main_v0) = _
  rw [StableHlo.after_of_writes_sub hostOps2 _ hostOps2_writes (by decide : main_v0 ∉ hostOps2_W)]
  exact U4_v0 m hin

def a3 (hin : HIn m) : (pcfg3 (F := F)).Adm := ⟨fun k => U7 m hin c0 (pre3.ref k), trivial⟩

theorem tb3_eq (hin : HIn m) : tb3 (a3 m hin) = KTerm.tbl3 (m ((c0 : Thread nD τ).loc main_arg0)) := by
  show U7 m hin c0 main_v7 = _
  show StableHlo.after hostOps3 (U6 m hin c0) (Proc.devRef .tc main_v7) = _
  after_results
  rw [U6_v0]; rfl

theorem hH3 (hin : HIn m) (t : Fin (cfg3 (a3 m hin)).N) : Hyp3 ((cfg3 (a3 m hin)).grid.coords t) (tb3 (a3 m hin)) :=
  hyp_of _ _ _ _ (fun r => by rw [tb3_eq]; exact KValue.tbl3_lt _ (hin c0) r)

def d3 (hin : HIn m) (c : Dev nD) : Dat τ (Elt F) Unit ℕ (Pipeline.UD sig nD τ) ℕ (cfg3 (a3 m hin)) c :=
  dat3 (fun c b => U7 m hin c b) (a3 m hin) (hH3 m hin) c

def o8 (hin : HIn m) (c : Dev nD) : Buf (Elt F) ((c : Thread nD τ).loc main_v8) := (d3 m hin c).arrAt 0 (cfg3 (a3 m hin)).N

def U8 (hin : HIn m) (c : Dev nD) : Valuation τ sig (Elt F) := Function.update (U7 m hin c) main_v8 (o8 m hin c)
abbrev U8r (hin : HIn m) (c : Dev nD) : (b : Ref sig .tc) → Buf (Elt F) ((c : Thread nD τ).loc b) := fun b => U8 m hin c b

def U9 (hin : HIn m) (c : Dev nD) : Valuation τ sig (Elt F) := StableHlo.after hostOps4 (U8 m hin c)

theorem U8_self (hin : HIn m) (c : Dev nD) : U8 m hin c main_v8 = o8 m hin c := by
  unfold U8; exact Function.update_self ..
theorem U8_of (hin : HIn m) (c : Dev nD) (r : Ref sig .tc) (h : r ≠ main_v8) : U8 m hin c r = U7 m hin c r := by
  unfold U8; exact Function.update_of_ne (StableHlo.devRef_ne_of_ne h) _ _

theorem U8_v0 (hin : HIn m) : U8 m hin c0 main_v0 = U1 m c0 main_v0 := by
  rw [U8_of m hin c0 main_v0 (by decide)]
  show StableHlo.after hostOps3 (U6 m hin c0) (Proc.devRef .tc main_v0) = _
  rw [StableHlo.after_of_writes_sub hostOps3 _ hostOps3_writes (by decide : main_v0 ∉ hostOps3_W)]
  exact U6_v0 m hin

def outs (hin : HIn m) : Outs (F := F) := fun J r c =>
  match J with
  | 2 => U2 m hin c r
  | 4 => U4 m hin c r
  | 6 => U6 m hin c r
  | _ => U8 m hin c r

def adm (hin : HIn m) : (p : Fin 4) → (pcfgs (F := F) p).Adm
  | ⟨0, _⟩ => a0 m hin
  | ⟨1, _⟩ => a1 m hin
  | ⟨2, _⟩ => a2 m hin
  | ⟨3, _⟩ => a3 m hin

def pdats (hin : HIn m) : (p : Fin 4) → (c : Dev nD) → Dat τ (Elt F) Unit ℕ (Pipeline.UD sig nD τ) ℕ (Pipeline.pin (pcfgs (F := F)) (adm m hin) p) c
  | ⟨0, _⟩ => fun c => d0 m hin c
  | ⟨1, _⟩ => fun c => d1 m hin c
  | ⟨2, _⟩ => fun c => d2 m hin c
  | ⟨3, _⟩ => fun c => d3 m hin c

theorem V2_eq (hin : HIn m) (c : Dev nD) : V2 m (outs m hin) c = U2 m hin c := by
  show Function.update (V1 m c) main_v2 (U2 m hin c main_v2) = U2 m hin c
  rw [U2_self]; rfl
theorem V3_eq (hin : HIn m) (c : Dev nD) : V3 m (outs m hin) c = U3 m hin c := by
  show StableHlo.after hostOps1 (V2 m (outs m hin) c) = _; rw [V2_eq]; rfl
theorem V4_eq (hin : HIn m) (c : Dev nD) : V4 m (outs m hin) c = U4 m hin c := by
  show Function.update (V3 m (outs m hin) c) main_v4 (U4 m hin c main_v4) = U4 m hin c
  rw [V3_eq, U4_self]; rfl
theorem V5_eq (hin : HIn m) (c : Dev nD) : V5 m (outs m hin) c = U5 m hin c := by
  show StableHlo.after hostOps2 (V4 m (outs m hin) c) = _; rw [V4_eq]; rfl
theorem V6_eq (hin : HIn m) (c : Dev nD) : V6 m (outs m hin) c = U6 m hin c := by
  show Function.update (V5 m (outs m hin) c) main_v6 (U6 m hin c main_v6) = U6 m hin c
  rw [V5_eq, U6_self]; rfl
theorem V7_eq (hin : HIn m) (c : Dev nD) : V7 m (outs m hin) c = U7 m hin c := by
  show StableHlo.after hostOps3 (V6 m (outs m hin) c) = _; rw [V6_eq]; rfl
theorem V8_eq (hin : HIn m) (c : Dev nD) : V8 m (outs m hin) c = U8 m hin c := by
  show Function.update (V7 m (outs m hin) c) main_v8 (U8 m hin c main_v8) = U8 m hin c
  rw [V7_eq, U8_self]; rfl
theorem V9_eq (hin : HIn m) (c : Dev nD) : V9 m (outs m hin) c = U9 m hin c := by
  show StableHlo.after hostOps4 (V8 m (outs m hin) c) = _; rw [V8_eq]; rfl

end Cert.Kernel.Hand

end
-- ==== Proof.K.Reg0.lean ====
import proofs.«413815_j28827820491521_2_alg».proof.Proof.K.Stages

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg0 : Pipeline.RegionSeg (pcfgs (F := F)) (adm m hin) (pdats m hin) () defs₀ 𝒱₀ L lv 0 where
  win := (launch0 (F := F)).win.to₀
  block_pos := (launch0 (F := F)).block_pos
  stage_whole := (launch0 (F := F)).stage_whole
  K := Fin 8
  osem := osem0
  ho := ownSemFacts0
  hbody c := (body_obligation0 (fun c b => U1 m c b) (a0 m hin) (hH0 m hin) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m hin c) ∗ R c)
  X c := iprop((∃ r, prngReg c r) ∗ Pipeline.ownSems0 (Ix := Unit) (Name := ℕ) (U := Pipeline.UD sig nD τ) (Lvl := ℕ) (Val := Elt F) (τ := τ) osem0 c
    ∗ (bigSep Hop0 fun b => (((c : Thread nD τ)).loc b) ↦{fullShare} U1 m c b))
  Y c := iprop((∃ r, prngReg c r) ∗ (bigSep Hop0 fun b => (((c : Thread nD τ)).loc b) ↦{fullShare} U1 m c b)
    ∗ Pipeline.prefHeld (Ix := Unit) (Name := ℕ) (U := Pipeline.UD sig nD τ) (Lvl := ℕ) pre0 c (fun _ => fullShare) (a0 m hin).1)
  Z c := bigSep (Pipeline.restRefsP sig pre0 spec0 \ Hop0) fun b => (((c : Thread nD τ)).loc b) ↦{fullShare} U1 m c b
  hentry c := by
    obtain rfl := eq_c0 c
    have hsplit := Pipeline.arrays_of_unscopedBufs (p := 0) (pcfgs (F := F)) (adm m hin) (pdats m hin) (launch0 (F := F)).win (launch0 (F := F)).arr_whole c0
      ((pdats m hin 0 c0).share_full fun _ => rfl) (U1r m c0) fun _ => rfl
    rw [Pipeline.unscopedBufs_held] at hsplit
    have hT := Pipeline.unscopedRest_split (Ix := Unit) (Name := ℕ) (U := Pipeline.UD sig nD τ) (Lvl := ℕ) (Val := Elt F) preFacts0 c0 (U1r m c0)
    have hH := Pipeline.unscopedRestP_sdiff (Val := Elt F) pre0 spec0 Hop0 Hop0_subP c0 (U1r m c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 0 c).Φ 0 = iprop(Pipeline.ΦD osem0 spec0 Hop0 (fun c b => U1 m c b) c
      ∗ Pipeline.prefHeld (Ix := Unit) (Name := ℕ) (U := Pipeline.UD sig nD τ) (Lvl := ℕ) pre0 c (fun _ => fullShare) (a0 m hin).1) from rfl, Pipeline.ΦD_eq]
    iintro ⟨⟨Hp, Ho, HH⟩, Hpf, Hr⟩
    iframe Hr Hp Ho HH
    iexact Hpf
  hout c := by
    rw [show (pdats m hin 0 c).Φ (Fin.last _) = iprop(Pipeline.ΦD osem0 spec0 Hop0 (fun c b => U1 m c b) c
      ∗ Pipeline.prefHeld (Ix := Unit) (Name := ℕ) (U := Pipeline.UD sig nD τ) (Lvl := ℕ) pre0 c (fun _ => fullShare) (a0 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 0) (pcfgs (F := F)) (adm m hin) (Ix := Unit) (Name := ℕ) (U := Pipeline.UD sig nD τ) (Lvl := ℕ)
      (launch0 (F := F)).win (launch0 (F := F)).arr_whole c0 (pdats m hin) ((pdats m hin 0 c0).share_full fun _ => rfl)
      (U1r m c0) (U2r m hin c0) ((pdats m hin 0 c0).arrAt · (cfg0 (a0 m hin)).N)
      (fun w => match w with | ⟨0, _⟩ => (U2_self m hin c0).symm)
      (fun b hb => U2_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts0 c0 (U1r m c0)
    have hH := Pipeline.unscopedRestP_sdiff (Val := Elt F) pre0 spec0 Hop0 Hop0_subP c0 (U1r m c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
import proofs.«413815_j28827820491521_2_alg».proof.Proof.K.Stages

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg1 : Pipeline.RegionSeg (pcfgs (F := F)) (adm m hin) (pdats m hin) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := (body_obligation1 (fun c b => U3 m hin c b) (a1 m hin) (hH1 m hin) c).loose
  hwaits := Pipeline.hwaits_of_owed_zero _ _ _ _ L lv 1 fun _ _ => rfl
  pre c := iprop(StableHlo.held (c : Thread nD τ) (Pipeline.ucRefs τ sig) (U3 m hin c) ∗ R c)
  post c := iprop(StableHlo.held (c : Thread nD τ) (Pipeline.ucRefs τ sig) (U4 m hin c) ∗ R c)
  X c := iprop((∃ r, prngReg c r) ∗ Pipeline.ownSems0 (Ix := Unit) (Name := ℕ) (U := Pipeline.UD sig nD τ) (Lvl := ℕ) (Val := Elt F) (τ := τ) osem1 c
    ∗ (bigSep Hop1 fun b => (((c : Thread nD τ)).loc b) ↦{fullShare} U3 m hin c b))
  Y c := iprop((∃ r, prngReg c r) ∗ (bigSep Hop1 fun b => (((c : Thread nD τ)).loc b) ↦{fullShare} U3 m hin c b)
    ∗ Pipeline.prefHeld (Ix := Unit) (Name := ℕ) (U := Pipeline.UD sig nD τ) (Lvl := ℕ) pre1 c (fun _ => fullShare) (a1 m hin).1)
  Z c := bigSep (Pipeline.restRefsP sig pre1 spec1 \ Hop1) fun b => (((c : Thread nD τ)).loc b) ↦{fullShare} U3 m hin c b
  hentry c := by
    obtain rfl := eq_c0 c
    have hsplit := Pipeline.arrays_of_unscopedBufs (p := 1) (pcfgs (F := F)) (adm m hin) (pdats m hin) (launch1 (F := F)).win (launch1 (F := F)).arr_whole c0
      ((pdats m hin 1 c0).share_full fun _ => rfl) (U3r m hin c0) fun _ => rfl
    rw [Pipeline.unscopedBufs_held] at hsplit
    have hT := Pipeline.unscopedRest_split (Ix := Unit) (Name := ℕ) (U := Pipeline.UD sig nD τ) (Lvl := ℕ) (Val := Elt F) preFacts1 c0 (U3r m hin c0)
    have hH := Pipeline.unscopedRestP_sdiff (Val := Elt F) pre1 spec1 Hop1 Hop1_subP c0 (U3r m hin c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 1 c).Φ 0 = iprop(Pipeline.ΦD osem1 spec1 Hop1 (fun c b => U3 m hin c b) c
      ∗ Pipeline.prefHeld (Ix := Unit) (Name := ℕ) (U := Pipeline.UD sig nD τ) (Lvl := ℕ) pre1 c (fun _ => fullShare) (a1 m hin).1) from rfl, Pipeline.ΦD_eq]
    iintro ⟨⟨Hp, Ho, HH⟩, Hpf, Hr⟩
    iframe Hr Hp Ho HH
    iexact Hpf
  hout c := by
    rw [show (pdats m hin 1 c).Φ (Fin.last _) = iprop(Pipeline.ΦD osem1 spec1 Hop1 (fun c b => U3 m hin c b) c
      ∗ Pipeline.prefHeld (Ix := Unit) (Name := ℕ) (U := Pipeline.UD sig nD τ) (Lvl := ℕ) pre1 c (fun _ => fullShare) (a1 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 1) (pcfgs (F := F)) (adm m hin) (Ix := Unit) (Name := ℕ) (U := Pipeline.UD sig nD τ) (Lvl := ℕ)
      (launch1 (F := F)).win (launch1 (F := F)).arr_whole c0 (pdats m hin) ((pdats m hin 1 c0).share_full fun _ => rfl)
      (U3r m hin c0) (U4r m hin c0) ((pdats m hin 1 c0).arrAt · (cfg1 (a1 m hin)).N)
      (fun w => match w with | ⟨0, _⟩ => (U4_self m hin c0).symm)
      (fun b hb => U4_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts1 c0 (U3r m hin c0)
    have hH := Pipeline.unscopedRestP_sdiff (Val := Elt F) pre1 spec1 Hop1 Hop1_subP c0 (U3r m hin c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
import proofs.«413815_j28827820491521_2_alg».proof.Proof.K.Stages

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg2 : Pipeline.RegionSeg (pcfgs (F := F)) (adm m hin) (pdats m hin) () defs₀ 𝒱₀ L lv 2 where
  win := (launch2 (F := F)).win.to₀
  block_pos := (launch2 (F := F)).block_pos
  stage_whole := (launch2 (F := F)).stage_whole
  K := Fin 8
  osem := osem2
  ho := ownSemFacts2
  hbody c := (body_obligation2 (fun c b => U5 m hin c b) (a2 m hin) (hH2 m hin) c).loose
  hwaits := Pipeline.hwaits_of_owed_zero _ _ _ _ L lv 2 fun _ _ => rfl
  pre c := iprop(StableHlo.held (c : Thread nD τ) (Pipeline.ucRefs τ sig) (U5 m hin c) ∗ R c)
  post c := iprop(StableHlo.held (c : Thread nD τ) (Pipeline.ucRefs τ sig) (U6 m hin c) ∗ R c)
  X c := iprop((∃ r, prngReg c r) ∗ Pipeline.ownSems0 (Ix := Unit) (Name := ℕ) (U := Pipeline.UD sig nD τ) (Lvl := ℕ) (Val := Elt F) (τ := τ) osem2 c
    ∗ (bigSep Hop2 fun b => (((c : Thread nD τ)).loc b) ↦{fullShare} U5 m hin c b))
  Y c := iprop((∃ r, prngReg c r) ∗ (bigSep Hop2 fun b => (((c : Thread nD τ)).loc b) ↦{fullShare} U5 m hin c b)
    ∗ Pipeline.prefHeld (Ix := Unit) (Name := ℕ) (U := Pipeline.UD sig nD τ) (Lvl := ℕ) pre2 c (fun _ => fullShare) (a2 m hin).1)
  Z c := bigSep (Pipeline.restRefsP sig pre2 spec2 \ Hop2) fun b => (((c : Thread nD τ)).loc b) ↦{fullShare} U5 m hin c b
  hentry c := by
    obtain rfl := eq_c0 c
    have hsplit := Pipeline.arrays_of_unscopedBufs (p := 2) (pcfgs (F := F)) (adm m hin) (pdats m hin) (launch2 (F := F)).win (launch2 (F := F)).arr_whole c0
      ((pdats m hin 2 c0).share_full fun _ => rfl) (U5r m hin c0) fun _ => rfl
    rw [Pipeline.unscopedBufs_held] at hsplit
    have hT := Pipeline.unscopedRest_split (Ix := Unit) (Name := ℕ) (U := Pipeline.UD sig nD τ) (Lvl := ℕ) (Val := Elt F) preFacts2 c0 (U5r m hin c0)
    have hH := Pipeline.unscopedRestP_sdiff (Val := Elt F) pre2 spec2 Hop2 Hop2_subP c0 (U5r m hin c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 2 c).Φ 0 = iprop(Pipeline.ΦD osem2 spec2 Hop2 (fun c b => U5 m hin c b) c
      ∗ Pipeline.prefHeld (Ix := Unit) (Name := ℕ) (U := Pipeline.UD sig nD τ) (Lvl := ℕ) pre2 c (fun _ => fullShare) (a2 m hin).1) from rfl, Pipeline.ΦD_eq]
    iintro ⟨⟨Hp, Ho, HH⟩, Hpf, Hr⟩
    iframe Hr Hp Ho HH
    iexact Hpf
  hout c := by
    rw [show (pdats m hin 2 c).Φ (Fin.last _) = iprop(Pipeline.ΦD osem2 spec2 Hop2 (fun c b => U5 m hin c b) c
      ∗ Pipeline.prefHeld (Ix := Unit) (Name := ℕ) (U := Pipeline.UD sig nD τ) (Lvl := ℕ) pre2 c (fun _ => fullShare) (a2 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 2) (pcfgs (F := F)) (adm m hin) (Ix := Unit) (Name := ℕ) (U := Pipeline.UD sig nD τ) (Lvl := ℕ)
      (launch2 (F := F)).win (launch2 (F := F)).arr_whole c0 (pdats m hin) ((pdats m hin 2 c0).share_full fun _ => rfl)
      (U5r m hin c0) (U6r m hin c0) ((pdats m hin 2 c0).arrAt · (cfg2 (a2 m hin)).N)
      (fun w => match w with | ⟨0, _⟩ => (U6_self m hin c0).symm)
      (fun b hb => U6_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts2 c0 (U5r m hin c0)
    have hH := Pipeline.unscopedRestP_sdiff (Val := Elt F) pre2 spec2 Hop2 Hop2_subP c0 (U5r m hin c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
import proofs.«413815_j28827820491521_2_alg».proof.Proof.K.Stages

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg3 : Pipeline.RegionSeg (pcfgs (F := F)) (adm m hin) (pdats m hin) () defs₀ 𝒱₀ L lv 3 where
  win := (launch3 (F := F)).win.to₀
  block_pos := (launch3 (F := F)).block_pos
  stage_whole := (launch3 (F := F)).stage_whole
  K := Fin 8
  osem := osem3
  ho := ownSemFacts3
  hbody c := (body_obligation3 (fun c b => U7 m hin c b) (a3 m hin) (hH3 m hin) c).loose
  hwaits := Pipeline.hwaits_of_owed_zero _ _ _ _ L lv 3 fun _ _ => rfl
  pre c := iprop(StableHlo.held (c : Thread nD τ) (Pipeline.ucRefs τ sig) (U7 m hin c) ∗ R c)
  post c := iprop(StableHlo.held (c : Thread nD τ) (Pipeline.ucRefs τ sig) (U8 m hin c) ∗ R c)
  X c := iprop((∃ r, prngReg c r) ∗ Pipeline.ownSems0 (Ix := Unit) (Name := ℕ) (U := Pipeline.UD sig nD τ) (Lvl := ℕ) (Val := Elt F) (τ := τ) osem3 c
    ∗ (bigSep Hop3 fun b => (((c : Thread nD τ)).loc b) ↦{fullShare} U7 m hin c b))
  Y c := iprop((∃ r, prngReg c r) ∗ (bigSep Hop3 fun b => (((c : Thread nD τ)).loc b) ↦{fullShare} U7 m hin c b)
    ∗ Pipeline.prefHeld (Ix := Unit) (Name := ℕ) (U := Pipeline.UD sig nD τ) (Lvl := ℕ) pre3 c (fun _ => fullShare) (a3 m hin).1)
  Z c := bigSep (Pipeline.restRefsP sig pre3 spec3 \ Hop3) fun b => (((c : Thread nD τ)).loc b) ↦{fullShare} U7 m hin c b
  hentry c := by
    obtain rfl := eq_c0 c
    have hsplit := Pipeline.arrays_of_unscopedBufs (p := 3) (pcfgs (F := F)) (adm m hin) (pdats m hin) (launch3 (F := F)).win (launch3 (F := F)).arr_whole c0
      ((pdats m hin 3 c0).share_full fun _ => rfl) (U7r m hin c0) fun _ => rfl
    rw [Pipeline.unscopedBufs_held] at hsplit
    have hT := Pipeline.unscopedRest_split (Ix := Unit) (Name := ℕ) (U := Pipeline.UD sig nD τ) (Lvl := ℕ) (Val := Elt F) preFacts3 c0 (U7r m hin c0)
    have hH := Pipeline.unscopedRestP_sdiff (Val := Elt F) pre3 spec3 Hop3 Hop3_subP c0 (U7r m hin c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 3 c).Φ 0 = iprop(Pipeline.ΦD osem3 spec3 Hop3 (fun c b => U7 m hin c b) c
      ∗ Pipeline.prefHeld (Ix := Unit) (Name := ℕ) (U := Pipeline.UD sig nD τ) (Lvl := ℕ) pre3 c (fun _ => fullShare) (a3 m hin).1) from rfl, Pipeline.ΦD_eq]
    iintro ⟨⟨Hp, Ho, HH⟩, Hpf, Hr⟩
    iframe Hr Hp Ho HH
    iexact Hpf
  hout c := by
    rw [show (pdats m hin 3 c).Φ (Fin.last _) = iprop(Pipeline.ΦD osem3 spec3 Hop3 (fun c b => U7 m hin c b) c
      ∗ Pipeline.prefHeld (Ix := Unit) (Name := ℕ) (U := Pipeline.UD sig nD τ) (Lvl := ℕ) pre3 c (fun _ => fullShare) (a3 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 3) (pcfgs (F := F)) (adm m hin) (Ix := Unit) (Name := ℕ) (U := Pipeline.UD sig nD τ) (Lvl := ℕ)
      (launch3 (F := F)).win (launch3 (F := F)).arr_whole c0 (pdats m hin) ((pdats m hin 3 c0).share_full fun _ => rfl)
      (U7r m hin c0) (U8r m hin c0) ((pdats m hin 3 c0).arrAt · (cfg3 (a3 m hin)).N)
      (fun w => match w with | ⟨0, _⟩ => (U8_self m hin c0).symm)
      (fun b hb => U8_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts3 c0 (U7r m hin c0)
    have hH := Pipeline.unscopedRestP_sdiff (Val := Elt F) pre3 spec3 Hop3 Hop3_subP c0 (U7r m hin c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
import proofs.«413815_j28827820491521_2_alg».proof.Proof.K.Reg0
import proofs.«413815_j28827820491521_2_alg».proof.Proof.K.Reg1
import proofs.«413815_j28827820491521_2_alg».proof.Proof.K.Reg2
import proofs.«413815_j28827820491521_2_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hin : HIn m)

abbrev u₀ : Pipeline.UD sig nD τ :=
  (initOf (Pipeline.cells (Pipeline.pin (pcfgs (F := F)) (adm m hin)) (cellOf_inj (adm m hin)))
    (Pipeline.launchToks (Pipeline.pin (pcfgs (F := F)) (adm m hin)) (cellOf_inj (adm m hin))), 1)

theorem hu₀ : (ownU (u₀ m hin) : sProp 𝕄) ⊢ |={Set.univ}=> iprop(BI.own ((embL : Emb (UR sig nD τ) 𝕄) (initOf (Pipeline.cells (Pipeline.pin (pcfgs (F := F)) (adm m hin)) (cellOf_inj (adm m hin))) (Pipeline.launchToks (Pipeline.pin (pcfgs (F := F)) (adm m hin)) (cellOf_inj (adm m hin)))))
      ∗ bigSep Finset.univ (fun _ : Dev nD => (BI.emp : sProp 𝕄))) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hper : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (R (F := F) c : sProp 𝕄) := fun c => by
    iintro ⟨-, HO, -, Hp, -⟩
    isplitl [Hp]; · iexists _; iexact Hp
    iexists ∅; iexact HO
  have hall : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) := bigSep_mono fun c _ => hper c
  iintro ⟨H, -⟩
  imodintro
  iapply hall
  iexact H

theorem hE4 (c : Dev nD) : (R (F := F) c : sProp 𝕄) ⊢ (iprop(∃ W, owes (c : Thread nD τ) (0 : CellTallies nD τ sig Unit) W) : sProp 𝕄) := by
  iintro ⟨-, HO⟩; iexact HO

set_option backward.isDefEq.respectTransparency.types false in
include hin in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (embL : Emb (UR sig nD τ) 𝕄) () 𝒱₀ L lv (fun _ _ => rfl) ρ (outs m hin) (adm m hin) (pdats m hin)
    0 (fun _ => BI.emp) (u₀ m hin) (hu₀ m hin) (fun _ c => R c) (hE0 ρ) hE4
    (reg0 m hin) (fun c => .rfl) (fun c => by rw [V2_eq]; exact .rfl)
    (reg1 m hin) (fun c => by rw [V3_eq]; exact .rfl) (fun c => by rw [V4_eq]; exact .rfl)
    (reg2 m hin) (fun c => by rw [V5_eq]; exact .rfl) (fun c => by rw [V6_eq]; exact .rfl)
    (reg3 m hin) (fun c => by rw [V7_eq]; exact .rfl) (fun c => by rw [V8_eq]; exact .rfl)

end Cert.Kernel.Hand

end
-- ==== Proof.KI.Run.lean ====
import proofs.«413815_j28827820491521_2_alg».proof.Proof.Gen.KernelIdeal.Launch
import proofs.«413815_j28827820491521_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«413815_j28827820491521_2_alg».proof.Proof.LibReadTokens

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four bodies are one function: their definitions differ only in the names of equal helper definitions. -/
theorem body1_eq : @cc1__gather_kernel F _ = cc0__gather_kernel := rfl
theorem body2_eq : @cc2__gather_kernel F _ = cc0__gather_kernel := rfl
theorem body3_eq : @cc3__gather_kernel F _ = cc0__gather_kernel := rfl

abbrev hbM : Memref sig .tc .hbm S1000000x32 .f32 := Memref.whole main_arg1
abbrev HbBuf (c : Dev nD) : Type := Buf (Elt F) (hbM.view.loc (c : Thread nD τ))
abbrev hbPt (c : Dev nD) (f : HbBuf (F := F) c) : sProp 𝕄 := hbM.view.loc (c : Thread nD τ) ↦{fullShare} f

/-- The word of the index table `x0`, seen through `arg1`, at offset `o`. -/
abbrev wordAt (arg1 : Memref sig .tc .smem S53248 .i32) (harg1 : arg1.IsWhole) (x0 : Vec F S53248 .i32) (o : Fin 1 → Nat)
    (ho : ∀ a, o a + S1.size a ≤ S53248.size a) :=
  arg1.view.readAt (Elt F) (Rect.unit (s := S53248) o S1.size ho).toLoadRect (harg1.unread x0) (Shape.Idx.first (numel1_S1.symm ▸ Nat.one_pos))

/-- Each of the eight words point `i` reads names a row of the big table. -/
def Hyp (i : grid0.Coords) (arg1 : Memref sig .tc .smem S53248 .i32) (harg1 : arg1.IsWhole) (x0 : Vec F S53248 .i32) : Prop :=
  k0_chk1 (wordAt arg1 harg1 x0 (k0_off1 i) (k0_off1_inb i)) ∧ k0_chk2 (wordAt arg1 harg1 x0 (k0_off3 i) (k0_off3_inb i))
  ∧ k0_chk3 (wordAt arg1 harg1 x0 (k0_off5 i) (k0_off5_inb i)) ∧ k0_chk4 (wordAt arg1 harg1 x0 (k0_off7 i) (k0_off7_inb i))
  ∧ k0_chk5 (wordAt arg1 harg1 x0 (k0_off9 i) (k0_off9_inb i)) ∧ k0_chk6 (wordAt arg1 harg1 x0 (k0_off11 i) (k0_off11_inb i))
  ∧ k0_chk7 (wordAt arg1 harg1 x0 (k0_off13 i) (k0_off13_inb i)) ∧ k0_chk8 (wordAt arg1 harg1 x0 (k0_off15 i) (k0_off15_inb i))

/-- Eight semaphores at zero. -/
abbrev semsAt (c : Dev nD) (q0 q1 q2 q3 q4 q5 q6 q7 : DmaSem sig) : sProp 𝕄 :=
  iprop(semVal ((c : Thread nD τ), SemLoc.dma q0) 0 ∗ semVal ((c : Thread nD τ), SemLoc.dma q1) 0 ∗ semVal ((c : Thread nD τ), SemLoc.dma q2) 0 ∗ semVal ((c : Thread nD τ), SemLoc.dma q3) 0 ∗ semVal ((c : Thread nD τ), SemLoc.dma q4) 0 ∗ semVal ((c : Thread nD τ), SemLoc.dma q5) 0 ∗ semVal ((c : Thread nD τ), SemLoc.dma q6) 0 ∗ semVal ((c : Thread nD τ), SemLoc.dma q7) 0)

/-- The body's specification at point `i` with semaphores `q0 … q7`: the index table and the big table are kept, and the
    output block `arg3` ends with the pieces `L1` written into it. -/
def RunSpec (c : Dev nD) (i : grid0.Coords) (arg1 : Memref sig .tc .smem S53248 .i32) (harg1 : arg1.IsWhole)
    (arg3 : Memref sig .tc .vmem S8x32 .f32) (harg3 : arg3.IsWhole) (arg4 : Memref sig .tc .vmem S8x32 .f32) (harg4 : arg4.IsWhole)
    (x0 : Vec F S53248 .i32) (fh0 : HbBuf (F := F) c) (q0 q1 q2 q3 q4 q5 q6 q7 : DmaSem sig) (sems : DmaSems sig S8)
    (L1 : List (View.Piece (Elt F) S8x32 .f32)) : Prop :=
  ∀ (W : Waits sig Unit) (K : PUnit → sProp 𝕄),
    iprop(owns (c : Thread nD τ) arg1 fullShare x0 ∗ (∃ d, owns (c : Thread nD τ) arg3 fullShare d) ∗ (∃ d, owns (c : Thread nD τ) arg4 fullShare d) ∗ semsAt c q0 q1 q2 q3 q4 q5 q6 q7 ∗ hbPt c fh0 ∗ owes (c : Thread nD τ) 0 W
        ∗ (iprop(owns (c : Thread nD τ) arg1 fullShare x0 ∗ (∃ f, arg3.view.loc (c : Thread nD τ) ↦[arg3.view.set]{fullShare} arg3.view.writes (Elt F) f L1) ∗ (∃ d, owns (c : Thread nD τ) arg4 fullShare d) ∗ semsAt c q0 q1 q2 q3 q4 q5 q6 q7 ∗ hbPt c fh0 ∗ (∃ W', owes (c : Thread nD τ) 0 W')) -∗ K ⟨⟩))
      ⊢ wp frame (wpE (defs₀ (F := F)) Variants.none c none) Set.univ (cc0__gather_kernel i arg1 harg1 (Memref.whole main_arg1) (Memref.isWhole_whole _) arg3 harg3 arg4 harg4 sems) K

section Runs

variable (c : Dev nD) (i : grid0.Coords) (arg1 : Memref sig .tc .smem S53248 .i32) (harg1 : arg1.IsWhole)
  (arg3 : Memref sig .tc .vmem S8x32 .f32) (harg3 : arg3.IsWhole) (arg4 : Memref sig .tc .vmem S8x32 .f32) (harg4 : arg4.IsWhole)
  (x0 : Vec F S53248 .i32) (fh0 : HbBuf (F := F) c) (hw : Hyp i arg1 harg1 x0)

include hw in
set_option sl_exec.dmaWindow true in
set_option sl_exec.dmaWindowSet true in
set_option maxHeartbeats 4000000 in
noncomputable def kernelRun0 :
    { L1 : List (View.Piece (Elt F) S8x32 .f32) // RunSpec c i arg1 harg1 arg3 harg3 arg4 harg4 x0 fh0 2 3 4 5 6 7 8 9 cc0_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 2) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 2)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

include hw in
set_option sl_exec.dmaWindow true in
set_option sl_exec.dmaWindowSet true in
set_option maxHeartbeats 4000000 in
noncomputable def kernelRun1 :
    { L1 : List (View.Piece (Elt F) S8x32 .f32) // RunSpec c i arg1 harg1 arg3 harg3 arg4 harg4 x0 fh0 12 13 14 15 16 17 18 19 cc1_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 12) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 12)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

include hw in
set_option sl_exec.dmaWindow true in
set_option sl_exec.dmaWindowSet true in
set_option maxHeartbeats 4000000 in
noncomputable def kernelRun2 :
    { L1 : List (View.Piece (Elt F) S8x32 .f32) // RunSpec c i arg1 harg1 arg3 harg3 arg4 harg4 x0 fh0 22 23 24 25 26 27 28 29 cc2_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 22) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 22)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

include hw in
set_option sl_exec.dmaWindow true in
set_option sl_exec.dmaWindowSet true in
set_option maxHeartbeats 4000000 in
noncomputable def kernelRun3 :
    { L1 : List (View.Piece (Elt F) S8x32 .f32) // RunSpec c i arg1 harg1 arg3 harg3 arg4 harg4 x0 fh0 32 33 34 35 36 37 38 39 cc3_scratch1 L1 } := by
  refine ⟨?_, ?run⟩
  case run =>
    unfold RunSpec semsAt
    intro W K
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, ⟨Hq0, Hq1, Hq2, Hq3, Hq4, Hq5, Hq6, Hq7⟩, Hh0, HW, Hk⟩
    obtain rfl := harg1.eq_unread hf0
    ihave HT := (Cert.LibReadTokens.split8 (Ix := Unit) (Name := ℕ) (U := Pipeline.UD sig nD τ) (Lvl := ℕ) (Val := Elt F) (ℓ := hbM.view.loc (c : Thread nD τ)) (S := Finset.univ) (f := fh0) fullShare 32) $$ Hh0
    icases HT with ⟨Hu, Hr, T0, T1, T2, T3, T4, T5, T6, T7⟩
    sl_exec (disch := first | sl_exact hw.1 | sl_exact hw.2.1 | sl_exact hw.2.2.1 | sl_exact hw.2.2.2.1 | sl_exact hw.2.2.2.2.1 | sl_exact hw.2.2.2.2.2.1 | sl_exact hw.2.2.2.2.2.2.1 | sl_exact hw.2.2.2.2.2.2.2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr [HW]
    · iapply (Cert.LibReadTokens.join8 (Ix := Unit) (Name := ℕ) (U := Pipeline.UD sig nD τ) (Lvl := ℕ) (Val := Elt F) (ℓ := hbM.view.loc (c : Thread nD τ)) (S := Finset.univ) (f := fh0) fullShare 32)
      isplitl [Hu]; · iexact Hu
      isplitl [Hr]; · iexact Hr
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexists _; iexact HW

/-- The run's pieces tile the output block, so they cover it. -/
theorem cover (y : S8x32.Idx) : ∃ pc ∈ (kernelRun0 c i arg1 harg1 arg3 harg3 arg4 harg4 x0 fh0 hw).1, y ∈ pc.1.set :=
  View.cover_of_tiledL (kernelRun0 c i arg1 harg1 arg3 harg3 arg4 harg4 x0 fh0 hw).1 S8x32.size (by sl_kernel_rfl) y

/-- What the run leaves in the output block: its pieces read back. -/
def out : Vec F S8x32 .f32 := View.canon (kernelRun0 c i arg1 harg1 arg3 harg3 arg4 harg4 x0 fh0 hw).1

/-- A buffer into which these pieces were written reads as `out`, whatever it held before. -/
theorem read_writes_out {L : List (View.Piece (Elt F) S8x32 .f32)} (hL : L = (kernelRun0 c i arg1 harg1 arg3 harg3 arg4 harg4 x0 fh0 hw).1)
    {sp : Space} (v : View sig .tc sp S8x32 .f32) (f : v.ty.Contents (Elt F)) :
    v.read (Elt F) (v.writes (Elt F) f L) = out c i arg1 harg1 arg3 harg3 arg4 harg4 x0 fh0 hw :=
  hL ▸ (View.read_writes_of_cover _ _ v v.junk _ (cover c i arg1 harg1 arg3 harg3 arg4 harg4 x0 fh0 hw)).trans (View.read_writes_junk_eq_canon v _)

end Runs

end Cert.KernelIdeal.Hand

end
-- ==== Proof.KI.Region0.lean ====
import proofs.«413815_j28827820491521_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp0 (i : grid0.Coords) (x0 : Vec F S53248 .i32) : Prop :=
  Hyp i (Memref.whole main_v1 : Memref sig .tc .smem S53248 .i32) (Memref.isWhole_whole _) x0

abbrev osem0 : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semsAt c 2 3 4 5 6 7 8 9 := by
  rw [Pipeline.ownSems0_eq_of_list c osem0 [0, 1, 2, 3, 4, 5, 6, 7] (by decide) (by decide)]; rfl

def Hop0 : Finset (Ref sig .tc) := {main_arg1}
theorem Hop0_sub : Hop0 ⊆ Pipeline.restRefs sig spec0 := by decide
theorem Hop0_subP : Hop0 ⊆ Pipeline.restRefsP sig pre0 spec0 := by decide

section Region0

variable (V : (c : Dev nD) → (b : Ref sig .tc) → Buf (Elt F) ((c : Thread nD τ).loc b))
variable (a : (pcfg0 (F := F)).Adm)

theorem hbmPts0_eq (c : Dev nD) :
    (bigSep Hop0 (fun b => ((c : Thread nD τ).loc b) ↦{fullShare} V c b) : sProp 𝕄) = iprop(hbPt c (V c main_arg1)) := by
  rw [BI.bigSep_eq_bigSepL_of_eq [main_arg1] (by decide) (by decide)]; rfl

abbrev tb0 : Vec F S53248 .i32 := a.1 0
abbrev tbM0 : Memref sig .tc .smem S53248 .i32 := Memref.whole main_v1
abbrev scM0 : Memref sig .tc .vmem S8x32 .f32 := Memref.whole cc0_scratch0

abbrev ms0 (t : Fin (cfg0 a).N) : Memref sig .tc .vmem S8x32 .f32 := spec0_0.stage ((cfg0 a).slots t 0)
abbrev hs0 (t : Fin (cfg0 a).N) : (ms0 a t).IsWhole := hstage0_0 (((cfg0 a).slots t 0).cast nbuf0_0)

abbrev bodyAt0 (t : Fin (cfg0 a).N) : Prog (TpuEff nD τ sig (Elt F) Λ₀ .tc) PUnit :=
  cc0__gather_kernel ((cfg0 a).grid.coords t) (Memref.whole main_v1) (Memref.isWhole_whole _) (Memref.whole main_arg1) (Memref.isWhole_whole _) (ms0 a t) (hs0 a t) (Memref.whole cc0_scratch0) (Memref.isWhole_whole _) cc0_scratch1

theorem prefHeld0_eq (c : Dev nD) :
    (Pipeline.prefHeld (Ix := Unit) (Name := ℕ) (U := Pipeline.UD sig nD τ) (Lvl := ℕ) pre0 c (fun _ => fullShare) a.1 : sProp 𝕄)
      = iprop(owns (c : Thread nD τ) tbM0 fullShare (tb0 a)) := by
  unfold Pipeline.prefHeld
  rw [bigSep_W0, owns_whole]
  rfl

theorem PhiD0_eq (c : Dev nD) :
    (Pipeline.ΦD osem0 spec0 Hop0 V c : sProp 𝕄)
      = iprop(iprop((∃ d, owns (c : Thread nD τ) scM0 fullShare d) ∗ Pipeline.scopedRestBut (Ix := Unit) (Name := ℕ) (U := Pipeline.UD sig nD τ) (Lvl := ℕ) (Val := Elt F) spec0 c [cc0_scratch0]) ∗ (∃ r, prngReg c r) ∗ semsAt c 2 3 4 5 6 7 8 9 ∗ iprop(hbPt c (V c main_arg1))) := by
  rw [Pipeline.ΦD_eq, Pipeline.scopedRest_split_of_list spec0 c [cc0_scratch0] (by decide) (by decide), ownSems00_eq, hbmPts0_eq]; simp only [scM0, owns_whole]; try rfl

variable (hH : ∀ t : Fin (cfg0 a).N, Hyp0 ((cfg0 a).grid.coords t) (tb0 a))

def outAt0 (c : Dev nD) (t : Fin (cfg0 a).N) : Vec F S8x32 .f32 :=
  out c ((cfg0 a).grid.coords t) (Memref.whole main_v1) (Memref.isWhole_whole _) (ms0 a t) (hs0 a t) (Memref.whole cc0_scratch0) (Memref.isWhole_whole _) (tb0 a) (V c main_arg1) (hH t)

def dat0 (c : Dev nD) : Dat τ (Elt F) Unit ℕ (Pipeline.UD sig nD τ) ℕ (cfg0 a) c where
  A w := V c (Pipeline.arrRef spec0 w)
  after w t := match w with
    | ⟨0, _⟩ => outAt0 V a hH c t
  Φ _ := iprop(Pipeline.ΦD osem0 spec0 Hop0 V c ∗ Pipeline.prefHeld (Ix := Unit) (Name := ℕ) (U := Pipeline.UD sig nD τ) (Lvl := ℕ) pre0 c (fun _ => fullShare) a.1)
  q _ := fullShare
  owed _ := 0

theorem A_eq0 (c : Dev nD) (w : Fin (cfg0 a).W) : (dat0 V a hH c).A w = V c (Pipeline.arrRef spec0 w) := by
  dsimp only [dat0]
theorem after0_0 (c : Dev nD) (t : Fin (cfg0 a).N) : (dat0 V a hH c).after 0 t = outAt0 V a hH c t := by dsimp only [dat0]; rfl

def bodyPre0 (c : Dev nD) (t : Fin (cfg0 a).N) : sProp 𝕄 :=
  iprop((dat0 V a hH c).Φ t.castSucc ∗ (dat0 V a hH c).owesAt () t.castSucc
    ∗ (∃ d, owns (c : Thread nD τ) (ms0 a t) fullShare ((dat0 V a hH c).before 0 t d)))

def bodyPost0 (c : Dev nD) (t : Fin (cfg0 a).N) : sProp 𝕄 :=
  iprop((dat0 V a hH c).Φ t.succ ∗ (dat0 V a hH c).owesAt () t.succ
    ∗ owns (c : Thread nD τ) (ms0 a t) fullShare ((dat0 V a hH c).after 0 t))

theorem sound_body0 (c : Dev nD) (t : Fin (cfg0 a).N) :
    bodyPre0 V a hH c t ⊢ wp frame (wpE (defs₀ (F := F)) Variants.none c none) Set.univ (bodyAt0 a t) (fun _ => bodyPost0 V a hH c t) := by
  unfold bodyPre0 bodyPost0 bodyAt0
  rw [show (dat0 V a hH c).Φ t.succ = (dat0 V a hH c).Φ t.castSucc from rfl, after0_0]
  rw [show (dat0 V a hH c).Φ t.castSucc = iprop(Pipeline.ΦD osem0 spec0 Hop0 V c ∗ Pipeline.prefHeld (Ix := Unit) (Name := ℕ) (U := Pipeline.UD sig nD τ) (Lvl := ℕ) pre0 c (fun _ => fullShare) a.1) from rfl,
    PhiD0_eq, prefHeld0_eq]
  unfold Dat.owesAt Pipeline.owesWithin
  rw [show (dat0 V a hH c).owed t.castSucc = 0 from rfl, show (dat0 V a hH c).owed t.succ = 0 from rfl]
  unfold outAt0 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun0 c ((cfg0 a).grid.coords t) (Memref.whole main_v1) (Memref.isWhole_whole _) (ms0 a t) (hs0 a t) (Memref.whole cc0_scratch0) (Memref.isWhole_whole _) (tb0 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation0 (c : Dev nD) : BodyObligation (dat0 (F := F) V a hH c) (defs₀ (F := F)) Variants.none () Set.univ := fun t => by
  rw [bigSep_W0, bigSep_W0]
  exact sound_body0 V a hH c t

end Region0

end Cert.KernelIdeal.Hand

end
-- ==== Proof.KI.Region1.lean ====
import proofs.«413815_j28827820491521_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp1 (i : grid0.Coords) (x0 : Vec F S53248 .i32) : Prop :=
  Hyp i (Memref.whole main_v3 : Memref sig .tc .smem S53248 .i32) (Memref.isWhole_whole _) x0

abbrev osem1 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts1 : Pipeline.OwnSemFacts spec1 osem1 := by decide
theorem ownSems10_eq (c : Dev nD) :
    (Pipeline.ownSems0 (Ix := Unit) (Name := ℕ) (U := Pipeline.UD sig nD τ) (Lvl := ℕ) (Val := Elt F) (τ := τ) osem1 c : sProp 𝕄)
      = semsAt c 12 13 14 15 16 17 18 19 := by
  rw [Pipeline.ownSems0_eq_of_list c osem1 [0, 1, 2, 3, 4, 5, 6, 7] (by decide) (by decide)]; rfl

def Hop1 : Finset (Ref sig .tc) := {main_arg1}
theorem Hop1_sub : Hop1 ⊆ Pipeline.restRefs sig spec1 := by decide
theorem Hop1_subP : Hop1 ⊆ Pipeline.restRefsP sig pre1 spec1 := by decide

section Region1

variable (V : (c : Dev nD) → (b : Ref sig .tc) → Buf (Elt F) ((c : Thread nD τ).loc b))
variable (a : (pcfg1 (F := F)).Adm)

theorem hbmPts1_eq (c : Dev nD) :
    (bigSep Hop1 (fun b => ((c : Thread nD τ).loc b) ↦{fullShare} V c b) : sProp 𝕄) = iprop(hbPt c (V c main_arg1)) := by
  rw [BI.bigSep_eq_bigSepL_of_eq [main_arg1] (by decide) (by decide)]; rfl

abbrev tb1 : Vec F S53248 .i32 := a.1 0
abbrev tbM1 : Memref sig .tc .smem S53248 .i32 := Memref.whole main_v3
abbrev scM1 : Memref sig .tc .vmem S8x32 .f32 := Memref.whole cc1_scratch0

abbrev ms1 (t : Fin (cfg1 a).N) : Memref sig .tc .vmem S8x32 .f32 := spec1_0.stage ((cfg1 a).slots t 0)
abbrev hs1 (t : Fin (cfg1 a).N) : (ms1 a t).IsWhole := hstage1_0 (((cfg1 a).slots t 0).cast nbuf1_0)

abbrev bodyAt1 (t : Fin (cfg1 a).N) : Prog (TpuEff nD τ sig (Elt F) Λ₀ .tc) PUnit :=
  cc0__gather_kernel ((cfg1 a).grid.coords t) (Memref.whole main_v3) (Memref.isWhole_whole _) (Memref.whole main_arg1) (Memref.isWhole_whole _) (ms1 a t) (hs1 a t) (Memref.whole cc1_scratch0) (Memref.isWhole_whole _) cc1_scratch1

theorem prefHeld1_eq (c : Dev nD) :
    (Pipeline.prefHeld (Ix := Unit) (Name := ℕ) (U := Pipeline.UD sig nD τ) (Lvl := ℕ) pre1 c (fun _ => fullShare) a.1 : sProp 𝕄)
      = iprop(owns (c : Thread nD τ) tbM1 fullShare (tb1 a)) := by
  unfold Pipeline.prefHeld
  rw [bigSep_W1, owns_whole]
  rfl

theorem PhiD1_eq (c : Dev nD) :
    (Pipeline.ΦD osem1 spec1 Hop1 V c : sProp 𝕄)
      = iprop(iprop((∃ d, owns (c : Thread nD τ) scM1 fullShare d) ∗ Pipeline.scopedRestBut (Ix := Unit) (Name := ℕ) (U := Pipeline.UD sig nD τ) (Lvl := ℕ) (Val := Elt F) spec1 c [cc1_scratch0]) ∗ (∃ r, prngReg c r) ∗ semsAt c 12 13 14 15 16 17 18 19 ∗ iprop(hbPt c (V c main_arg1))) := by
  rw [Pipeline.ΦD_eq, Pipeline.scopedRest_split_of_list spec1 c [cc1_scratch0] (by decide) (by decide), ownSems10_eq, hbmPts1_eq]; simp only [scM1, owns_whole]; try rfl

variable (hH : ∀ t : Fin (cfg1 a).N, Hyp1 ((cfg1 a).grid.coords t) (tb1 a))

def outAt1 (c : Dev nD) (t : Fin (cfg1 a).N) : Vec F S8x32 .f32 :=
  out c ((cfg1 a).grid.coords t) (Memref.whole main_v3) (Memref.isWhole_whole _) (ms1 a t) (hs1 a t) (Memref.whole cc1_scratch0) (Memref.isWhole_whole _) (tb1 a) (V c main_arg1) (hH t)

def dat1 (c : Dev nD) : Dat τ (Elt F) Unit ℕ (Pipeline.UD sig nD τ) ℕ (cfg1 a) c where
  A w := V c (Pipeline.arrRef spec1 w)
  after w t := match w with
    | ⟨0, _⟩ => outAt1 V a hH c t
  Φ _ := iprop(Pipeline.ΦD osem1 spec1 Hop1 V c ∗ Pipeline.prefHeld (Ix := Unit) (Name := ℕ) (U := Pipeline.UD sig nD τ) (Lvl := ℕ) pre1 c (fun _ => fullShare) a.1)
  q _ := fullShare
  owed _ := 0

theorem A_eq1 (c : Dev nD) (w : Fin (cfg1 a).W) : (dat1 V a hH c).A w = V c (Pipeline.arrRef spec1 w) := by
  dsimp only [dat1]
theorem after1_0 (c : Dev nD) (t : Fin (cfg1 a).N) : (dat1 V a hH c).after 0 t = outAt1 V a hH c t := by dsimp only [dat1]; rfl

def bodyPre1 (c : Dev nD) (t : Fin (cfg1 a).N) : sProp 𝕄 :=
  iprop((dat1 V a hH c).Φ t.castSucc ∗ (dat1 V a hH c).owesAt () t.castSucc
    ∗ (∃ d, owns (c : Thread nD τ) (ms1 a t) fullShare ((dat1 V a hH c).before 0 t d)))

def bodyPost1 (c : Dev nD) (t : Fin (cfg1 a).N) : sProp 𝕄 :=
  iprop((dat1 V a hH c).Φ t.succ ∗ (dat1 V a hH c).owesAt () t.succ
    ∗ owns (c : Thread nD τ) (ms1 a t) fullShare ((dat1 V a hH c).after 0 t))

theorem sound_body1 (c : Dev nD) (t : Fin (cfg1 a).N) :
    bodyPre1 V a hH c t ⊢ wp frame (wpE (defs₀ (F := F)) Variants.none c none) Set.univ (bodyAt1 a t) (fun _ => bodyPost1 V a hH c t) := by
  unfold bodyPre1 bodyPost1 bodyAt1
  rw [show (dat1 V a hH c).Φ t.succ = (dat1 V a hH c).Φ t.castSucc from rfl, after1_0]
  rw [show (dat1 V a hH c).Φ t.castSucc = iprop(Pipeline.ΦD osem1 spec1 Hop1 V c ∗ Pipeline.prefHeld (Ix := Unit) (Name := ℕ) (U := Pipeline.UD sig nD τ) (Lvl := ℕ) pre1 c (fun _ => fullShare) a.1) from rfl,
    PhiD1_eq, prefHeld1_eq]
  unfold Dat.owesAt Pipeline.owesWithin
  rw [show (dat1 V a hH c).owed t.castSucc = 0 from rfl, show (dat1 V a hH c).owed t.succ = 0 from rfl]
  unfold outAt1 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun1 c ((cfg1 a).grid.coords t) (Memref.whole main_v3) (Memref.isWhole_whole _) (ms1 a t) (hs1 a t) (Memref.whole cc1_scratch0) (Memref.isWhole_whole _) (tb1 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation1 (c : Dev nD) : BodyObligation (dat1 (F := F) V a hH c) (defs₀ (F := F)) Variants.none () Set.univ := fun t => by
  rw [bigSep_W1, bigSep_W1]
  exact sound_body1 V a hH c t

end Region1

end Cert.KernelIdeal.Hand

end
-- ==== Proof.KI.Region2.lean ====
import proofs.«413815_j28827820491521_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp2 (i : grid0.Coords) (x0 : Vec F S53248 .i32) : Prop :=
  Hyp i (Memref.whole main_v5 : Memref sig .tc .smem S53248 .i32) (Memref.isWhole_whole _) x0

abbrev osem2 : Fin 8 → SemLoc sig := fun j => (![SemLoc.dma 22, SemLoc.dma 23, SemLoc.dma 24, SemLoc.dma 25, SemLoc.dma 26, SemLoc.dma 27, SemLoc.dma 28, SemLoc.dma 29] : Fin 8 → SemLoc sig) j
theorem ownSemFacts2 : Pipeline.OwnSemFacts spec2 osem2 := by decide
theorem ownSems20_eq (c : Dev nD) :
    (Pipeline.ownSems0 (Ix := Unit) (Name := ℕ) (U := Pipeline.UD sig nD τ) (Lvl := ℕ) (Val := Elt F) (τ := τ) osem2 c : sProp 𝕄)
      = semsAt c 22 23 24 25 26 27 28 29 := by
  rw [Pipeline.ownSems0_eq_of_list c osem2 [0, 1, 2, 3, 4, 5, 6, 7] (by decide) (by decide)]; rfl

def Hop2 : Finset (Ref sig .tc) := {main_arg1}
theorem Hop2_sub : Hop2 ⊆ Pipeline.restRefs sig spec2 := by decide
theorem Hop2_subP : Hop2 ⊆ Pipeline.restRefsP sig pre2 spec2 := by decide

section Region2

variable (V : (c : Dev nD) → (b : Ref sig .tc) → Buf (Elt F) ((c : Thread nD τ).loc b))
variable (a : (pcfg2 (F := F)).Adm)

theorem hbmPts2_eq (c : Dev nD) :
    (bigSep Hop2 (fun b => ((c : Thread nD τ).loc b) ↦{fullShare} V c b) : sProp 𝕄) = iprop(hbPt c (V c main_arg1)) := by
  rw [BI.bigSep_eq_bigSepL_of_eq [main_arg1] (by decide) (by decide)]; rfl

abbrev tb2 : Vec F S53248 .i32 := a.1 0
abbrev tbM2 : Memref sig .tc .smem S53248 .i32 := Memref.whole main_v5
abbrev scM2 : Memref sig .tc .vmem S8x32 .f32 := Memref.whole cc2_scratch0

abbrev ms2 (t : Fin (cfg2 a).N) : Memref sig .tc .vmem S8x32 .f32 := spec2_0.stage ((cfg2 a).slots t 0)
abbrev hs2 (t : Fin (cfg2 a).N) : (ms2 a t).IsWhole := hstage2_0 (((cfg2 a).slots t 0).cast nbuf2_0)

abbrev bodyAt2 (t : Fin (cfg2 a).N) : Prog (TpuEff nD τ sig (Elt F) Λ₀ .tc) PUnit :=
  cc0__gather_kernel ((cfg2 a).grid.coords t) (Memref.whole main_v5) (Memref.isWhole_whole _) (Memref.whole main_arg1) (Memref.isWhole_whole _) (ms2 a t) (hs2 a t) (Memref.whole cc2_scratch0) (Memref.isWhole_whole _) cc2_scratch1

theorem prefHeld2_eq (c : Dev nD) :
    (Pipeline.prefHeld (Ix := Unit) (Name := ℕ) (U := Pipeline.UD sig nD τ) (Lvl := ℕ) pre2 c (fun _ => fullShare) a.1 : sProp 𝕄)
      = iprop(owns (c : Thread nD τ) tbM2 fullShare (tb2 a)) := by
  unfold Pipeline.prefHeld
  rw [bigSep_W2, owns_whole]
  rfl

theorem PhiD2_eq (c : Dev nD) :
    (Pipeline.ΦD osem2 spec2 Hop2 V c : sProp 𝕄)
      = iprop(iprop((∃ d, owns (c : Thread nD τ) scM2 fullShare d) ∗ Pipeline.scopedRestBut (Ix := Unit) (Name := ℕ) (U := Pipeline.UD sig nD τ) (Lvl := ℕ) (Val := Elt F) spec2 c [cc2_scratch0]) ∗ (∃ r, prngReg c r) ∗ semsAt c 22 23 24 25 26 27 28 29 ∗ iprop(hbPt c (V c main_arg1))) := by
  rw [Pipeline.ΦD_eq, Pipeline.scopedRest_split_of_list spec2 c [cc2_scratch0] (by decide) (by decide), ownSems20_eq, hbmPts2_eq]; simp only [scM2, owns_whole]; try rfl

variable (hH : ∀ t : Fin (cfg2 a).N, Hyp2 ((cfg2 a).grid.coords t) (tb2 a))

def outAt2 (c : Dev nD) (t : Fin (cfg2 a).N) : Vec F S8x32 .f32 :=
  out c ((cfg2 a).grid.coords t) (Memref.whole main_v5) (Memref.isWhole_whole _) (ms2 a t) (hs2 a t) (Memref.whole cc2_scratch0) (Memref.isWhole_whole _) (tb2 a) (V c main_arg1) (hH t)

def dat2 (c : Dev nD) : Dat τ (Elt F) Unit ℕ (Pipeline.UD sig nD τ) ℕ (cfg2 a) c where
  A w := V c (Pipeline.arrRef spec2 w)
  after w t := match w with
    | ⟨0, _⟩ => outAt2 V a hH c t
  Φ _ := iprop(Pipeline.ΦD osem2 spec2 Hop2 V c ∗ Pipeline.prefHeld (Ix := Unit) (Name := ℕ) (U := Pipeline.UD sig nD τ) (Lvl := ℕ) pre2 c (fun _ => fullShare) a.1)
  q _ := fullShare
  owed _ := 0

theorem A_eq2 (c : Dev nD) (w : Fin (cfg2 a).W) : (dat2 V a hH c).A w = V c (Pipeline.arrRef spec2 w) := by
  dsimp only [dat2]
theorem after2_0 (c : Dev nD) (t : Fin (cfg2 a).N) : (dat2 V a hH c).after 0 t = outAt2 V a hH c t := by dsimp only [dat2]; rfl

def bodyPre2 (c : Dev nD) (t : Fin (cfg2 a).N) : sProp 𝕄 :=
  iprop((dat2 V a hH c).Φ t.castSucc ∗ (dat2 V a hH c).owesAt () t.castSucc
    ∗ (∃ d, owns (c : Thread nD τ) (ms2 a t) fullShare ((dat2 V a hH c).before 0 t d)))

def bodyPost2 (c : Dev nD) (t : Fin (cfg2 a).N) : sProp 𝕄 :=
  iprop((dat2 V a hH c).Φ t.succ ∗ (dat2 V a hH c).owesAt () t.succ
    ∗ owns (c : Thread nD τ) (ms2 a t) fullShare ((dat2 V a hH c).after 0 t))

theorem sound_body2 (c : Dev nD) (t : Fin (cfg2 a).N) :
    bodyPre2 V a hH c t ⊢ wp frame (wpE (defs₀ (F := F)) Variants.none c none) Set.univ (bodyAt2 a t) (fun _ => bodyPost2 V a hH c t) := by
  unfold bodyPre2 bodyPost2 bodyAt2
  rw [show (dat2 V a hH c).Φ t.succ = (dat2 V a hH c).Φ t.castSucc from rfl, after2_0]
  rw [show (dat2 V a hH c).Φ t.castSucc = iprop(Pipeline.ΦD osem2 spec2 Hop2 V c ∗ Pipeline.prefHeld (Ix := Unit) (Name := ℕ) (U := Pipeline.UD sig nD τ) (Lvl := ℕ) pre2 c (fun _ => fullShare) a.1) from rfl,
    PhiD2_eq, prefHeld2_eq]
  unfold Dat.owesAt Pipeline.owesWithin
  rw [show (dat2 V a hH c).owed t.castSucc = 0 from rfl, show (dat2 V a hH c).owed t.succ = 0 from rfl]
  unfold outAt2 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun2 c ((cfg2 a).grid.coords t) (Memref.whole main_v5) (Memref.isWhole_whole _) (ms2 a t) (hs2 a t) (Memref.whole cc2_scratch0) (Memref.isWhole_whole _) (tb2 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation2 (c : Dev nD) : BodyObligation (dat2 (F := F) V a hH c) (defs₀ (F := F)) Variants.none () Set.univ := fun t => by
  rw [bigSep_W2, bigSep_W2]
  exact sound_body2 V a hH c t

end Region2

end Cert.KernelIdeal.Hand

end
-- ==== Proof.KI.Region3.lean ====
import proofs.«413815_j28827820491521_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Hyp3 (i : grid0.Coords) (x0 : Vec F S53248 .i32) : Prop :=
  Hyp i (Memref.whole main_v7 : Memref sig .tc .smem S53248 .i32) (Memref.isWhole_whole _) x0

abbrev osem3 : Fin 8 → SemLoc sig := fun j => (![SemLoc.dma 32, SemLoc.dma 33, SemLoc.dma 34, SemLoc.dma 35, SemLoc.dma 36, SemLoc.dma 37, SemLoc.dma 38, SemLoc.dma 39] : Fin 8 → SemLoc sig) j
theorem ownSemFacts3 : Pipeline.OwnSemFacts spec3 osem3 := by decide
theorem ownSems30_eq (c : Dev nD) :
    (Pipeline.ownSems0 (Ix := Unit) (Name := ℕ) (U := Pipeline.UD sig nD τ) (Lvl := ℕ) (Val := Elt F) (τ := τ) osem3 c : sProp 𝕄)
      = semsAt c 32 33 34 35 36 37 38 39 := by
  rw [Pipeline.ownSems0_eq_of_list c osem3 [0, 1, 2, 3, 4, 5, 6, 7] (by decide) (by decide)]; rfl

def Hop3 : Finset (Ref sig .tc) := {main_arg1}
theorem Hop3_sub : Hop3 ⊆ Pipeline.restRefs sig spec3 := by decide
theorem Hop3_subP : Hop3 ⊆ Pipeline.restRefsP sig pre3 spec3 := by decide

section Region3

variable (V : (c : Dev nD) → (b : Ref sig .tc) → Buf (Elt F) ((c : Thread nD τ).loc b))
variable (a : (pcfg3 (F := F)).Adm)

theorem hbmPts3_eq (c : Dev nD) :
    (bigSep Hop3 (fun b => ((c : Thread nD τ).loc b) ↦{fullShare} V c b) : sProp 𝕄) = iprop(hbPt c (V c main_arg1)) := by
  rw [BI.bigSep_eq_bigSepL_of_eq [main_arg1] (by decide) (by decide)]; rfl

abbrev tb3 : Vec F S53248 .i32 := a.1 0
abbrev tbM3 : Memref sig .tc .smem S53248 .i32 := Memref.whole main_v7
abbrev scM3 : Memref sig .tc .vmem S8x32 .f32 := Memref.whole cc3_scratch0

abbrev ms3 (t : Fin (cfg3 a).N) : Memref sig .tc .vmem S8x32 .f32 := spec3_0.stage ((cfg3 a).slots t 0)
abbrev hs3 (t : Fin (cfg3 a).N) : (ms3 a t).IsWhole := hstage3_0 (((cfg3 a).slots t 0).cast nbuf3_0)

abbrev bodyAt3 (t : Fin (cfg3 a).N) : Prog (TpuEff nD τ sig (Elt F) Λ₀ .tc) PUnit :=
  cc0__gather_kernel ((cfg3 a).grid.coords t) (Memref.whole main_v7) (Memref.isWhole_whole _) (Memref.whole main_arg1) (Memref.isWhole_whole _) (ms3 a t) (hs3 a t) (Memref.whole cc3_scratch0) (Memref.isWhole_whole _) cc3_scratch1

theorem prefHeld3_eq (c : Dev nD) :
    (Pipeline.prefHeld (Ix := Unit) (Name := ℕ) (U := Pipeline.UD sig nD τ) (Lvl := ℕ) pre3 c (fun _ => fullShare) a.1 : sProp 𝕄)
      = iprop(owns (c : Thread nD τ) tbM3 fullShare (tb3 a)) := by
  unfold Pipeline.prefHeld
  rw [bigSep_W3, owns_whole]
  rfl

theorem PhiD3_eq (c : Dev nD) :
    (Pipeline.ΦD osem3 spec3 Hop3 V c : sProp 𝕄)
      = iprop(iprop((∃ d, owns (c : Thread nD τ) scM3 fullShare d) ∗ Pipeline.scopedRestBut (Ix := Unit) (Name := ℕ) (U := Pipeline.UD sig nD τ) (Lvl := ℕ) (Val := Elt F) spec3 c [cc3_scratch0]) ∗ (∃ r, prngReg c r) ∗ semsAt c 32 33 34 35 36 37 38 39 ∗ iprop(hbPt c (V c main_arg1))) := by
  rw [Pipeline.ΦD_eq, Pipeline.scopedRest_split_of_list spec3 c [cc3_scratch0] (by decide) (by decide), ownSems30_eq, hbmPts3_eq]; simp only [scM3, owns_whole]; try rfl

variable (hH : ∀ t : Fin (cfg3 a).N, Hyp3 ((cfg3 a).grid.coords t) (tb3 a))

def outAt3 (c : Dev nD) (t : Fin (cfg3 a).N) : Vec F S8x32 .f32 :=
  out c ((cfg3 a).grid.coords t) (Memref.whole main_v7) (Memref.isWhole_whole _) (ms3 a t) (hs3 a t) (Memref.whole cc3_scratch0) (Memref.isWhole_whole _) (tb3 a) (V c main_arg1) (hH t)

def dat3 (c : Dev nD) : Dat τ (Elt F) Unit ℕ (Pipeline.UD sig nD τ) ℕ (cfg3 a) c where
  A w := V c (Pipeline.arrRef spec3 w)
  after w t := match w with
    | ⟨0, _⟩ => outAt3 V a hH c t
  Φ _ := iprop(Pipeline.ΦD osem3 spec3 Hop3 V c ∗ Pipeline.prefHeld (Ix := Unit) (Name := ℕ) (U := Pipeline.UD sig nD τ) (Lvl := ℕ) pre3 c (fun _ => fullShare) a.1)
  q _ := fullShare
  owed _ := 0

theorem A_eq3 (c : Dev nD) (w : Fin (cfg3 a).W) : (dat3 V a hH c).A w = V c (Pipeline.arrRef spec3 w) := by
  dsimp only [dat3]
theorem after3_0 (c : Dev nD) (t : Fin (cfg3 a).N) : (dat3 V a hH c).after 0 t = outAt3 V a hH c t := by dsimp only [dat3]; rfl

def bodyPre3 (c : Dev nD) (t : Fin (cfg3 a).N) : sProp 𝕄 :=
  iprop((dat3 V a hH c).Φ t.castSucc ∗ (dat3 V a hH c).owesAt () t.castSucc
    ∗ (∃ d, owns (c : Thread nD τ) (ms3 a t) fullShare ((dat3 V a hH c).before 0 t d)))

def bodyPost3 (c : Dev nD) (t : Fin (cfg3 a).N) : sProp 𝕄 :=
  iprop((dat3 V a hH c).Φ t.succ ∗ (dat3 V a hH c).owesAt () t.succ
    ∗ owns (c : Thread nD τ) (ms3 a t) fullShare ((dat3 V a hH c).after 0 t))

theorem sound_body3 (c : Dev nD) (t : Fin (cfg3 a).N) :
    bodyPre3 V a hH c t ⊢ wp frame (wpE (defs₀ (F := F)) Variants.none c none) Set.univ (bodyAt3 a t) (fun _ => bodyPost3 V a hH c t) := by
  unfold bodyPre3 bodyPost3 bodyAt3
  rw [show (dat3 V a hH c).Φ t.succ = (dat3 V a hH c).Φ t.castSucc from rfl, after3_0]
  rw [show (dat3 V a hH c).Φ t.castSucc = iprop(Pipeline.ΦD osem3 spec3 Hop3 V c ∗ Pipeline.prefHeld (Ix := Unit) (Name := ℕ) (U := Pipeline.UD sig nD τ) (Lvl := ℕ) pre3 c (fun _ => fullShare) a.1) from rfl,
    PhiD3_eq, prefHeld3_eq]
  unfold Dat.owesAt Pipeline.owesWithin
  rw [show (dat3 V a hH c).owed t.castSucc = 0 from rfl, show (dat3 V a hH c).owed t.succ = 0 from rfl]
  unfold outAt3 semsAt
  iintro ⟨⟨⟨⟨HS0, HR⟩, Hg, ⟨Hq0, Hq1, Hq2, Hq3, Hq4, Hq5, Hq6, Hq7⟩, Hh0⟩, Htb⟩, ⟨%W, -, HW⟩, ⟨%d1, H1⟩⟩
  have hrun := (kernelRun3 c ((cfg3 a).grid.coords t) (Memref.whole main_v7) (Memref.isWhole_whole _) (ms3 a t) (hs3 a t) (Memref.whole cc3_scratch0) (Memref.isWhole_whole _) (tb3 a) (V c main_arg1) (hH t)).2
  unfold RunSpec semsAt at hrun
  iapply (hrun W _)
  iframe Htb HS0 Hq0 Hq1 Hq2 Hq3 Hq4 Hq5 Hq6 Hq7 Hh0 HW
  isplitl [H1]; · iexists _; iexact H1
  iintro ⟨Htb, ⟨%e1, H1⟩, HS0, ⟨Hq0, Hq1, Hq2, Hq3, Hq4, Hq5, Hq6, Hq7⟩, Hh0, ⟨%W', HW'⟩⟩
  iframe HS0 HR Hg Hq0 Hq1 Hq2 Hq3 Hq4 Hq5 Hq6 Hq7 Hh0 Htb
  isplitl [HW']
  · iexists W'; isplitr; · ipureintro; exact fun _ _ => Or.inl trivial
    iexact HW'
  unfold owns; iexists _; isplitr
  swap; · iexact H1
  ipureintro; exact read_writes_out c _ _ _ _ _ _ _ _ _ (hH t) rfl _ _

theorem body_obligation3 (c : Dev nD) : BodyObligation (dat3 (F := F) V a hH c) (defs₀ (F := F)) Variants.none () Set.univ := fun t => by
  rw [bigSep_W3, bigSep_W3]
  exact sound_body3 V a hH c t

end Region3

end Cert.KernelIdeal.Hand

end
-- ==== Proof.KI.Hyp.lean ====
import proofs.«413815_j28827820491521_2_alg».proof.Proof.KI.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (arg1 : Memref sig .tc .smem S53248 .i32) (harg1 : arg1.IsWhole) (x0 : Vec F S53248 .i32)

/-- A one-word load at offset `n` reads entry `n` of the table: the rectangle has unit stride and its only index is 0. -/
theorem word_at (off : Fin 1 → Nat) (inb : ∀ a, off a + S1.size a ≤ S53248.size a) (n : Nat) (hn : n < 53248) (hoff : off 0 = n) :
    wordAt arg1 harg1 x0 off inb = x0 (ValueIdx.ix1 (n := 53248) ⟨n, hn⟩) := by
  show arg1.view.readAt (Elt F) _ (harg1.unread x0) _ = _
  rw [View.readAt_apply, Memref.IsWhole.read_unread]
  congr 1
  funext a
  apply Fin.ext
  match a with
  | ⟨0, _⟩ => show off 0 + 1 * 0 = n; omega

/-- For m < 6656 and k < 8, 8 m + k < 2^32, so the 32-bit product and sum are the natural-number ones. -/
theorem off_nowrap (m k : Nat) (hm : m < 6656) (hk : k < 8) :
    (Scalar.indexCast (Scalar.addi (Scalar.muli (BitVec.ofNat 32 m) 8#32) (BitVec.ofNat 32 k))).toNat = 8 * m + k := by
  show (BitVec.ofNat 32 m * 8#32 + BitVec.ofNat 32 k).toNat = 8 * m + k
  rw [BitVec.toNat_add, BitVec.toNat_mul, BitVec.toNat_ofNat, BitVec.toNat_ofNat, BitVec.toNat_ofNat]
  omega

/-- A word names a row of the big table exactly when it is below 1,000,000. -/
theorem row_fits_iff (v : BitVec 32) :
    (∀ a, (![v.toNat, 0] : Fin 2 → Nat) a + S1x32.size a ≤ S1000000x32.size a) ↔ v.toNat < 1000000 := by
  constructor
  · intro h
    have h0 : v.toNat + 1 ≤ 1000000 := h (0 : Fin 2)
    omega
  · intro hv a
    match a with
    | ⟨0, _⟩ => show v.toNat + 1 ≤ 1000000; omega
    | ⟨1, _⟩ => show 0 + 32 ≤ 32; omega

variable (i : grid0.Coords)

/-- The word read at offset 8 i + k is entry 8 i + k of the table, so its row check is that entry's range. -/
theorem fits_iff (k : Nat) (hk : k < 8) (off : Fin 1 → Nat) (inb : ∀ a, off a + S1.size a ≤ S53248.size a)
    (hoff : off 0 = 8 * (i 0).val + k) (hi : 8 * (i 0).val + k < 53248) :
    (∀ a, (![(wordAt arg1 harg1 x0 off inb).toNat, 0] : Fin 2 → Nat) a + S1x32.size a ≤ S1000000x32.size a)
      ↔ (x0 (ValueIdx.ix1 (n := 53248) ⟨8 * (i 0).val + k, hi⟩)).toNat < 1000000 := by
  rw [row_fits_iff, word_at arg1 harg1 x0 off inb _ hi hoff]

/-- If every word of the table is below 1,000,000, the eight words point `i` reads pass their checks. -/
theorem hyp_of (h : ∀ r : Fin 53248, (x0 (ValueIdx.ix1 (n := 53248) r)).toNat < 1000000) : Hyp i arg1 harg1 x0 := by
  have hv : (i 0).val < 6656 := (i 0).isLt
  have key (k : Nat) (hk : k < 8) (off : Fin 1 → Nat) (inb : ∀ a, off a + S1.size a ≤ S53248.size a) (hoff : off 0 = 8 * (i 0).val + k) :=
    (fits_iff arg1 harg1 x0 i k hk off inb hoff (by omega)).mpr (h _)
  exact ⟨⟨key 0 (by omega) (k0_off1 i) _ (off_nowrap _ 0 hv (by omega)), key 0 (by omega) (k0_off1 i) _ (off_nowrap _ 0 hv (by omega))⟩,
    ⟨key 1 (by omega) (k0_off3 i) _ (off_nowrap _ 1 hv (by omega)), key 1 (by omega) (k0_off3 i) _ (off_nowrap _ 1 hv (by omega))⟩,
    ⟨key 2 (by omega) (k0_off5 i) _ (off_nowrap _ 2 hv (by omega)), key 2 (by omega) (k0_off5 i) _ (off_nowrap _ 2 hv (by omega))⟩,
    ⟨key 3 (by omega) (k0_off7 i) _ (off_nowrap _ 3 hv (by omega)), key 3 (by omega) (k0_off7 i) _ (off_nowrap _ 3 hv (by omega))⟩,
    ⟨key 4 (by omega) (k0_off9 i) _ (off_nowrap _ 4 hv (by omega)), key 4 (by omega) (k0_off9 i) _ (off_nowrap _ 4 hv (by omega))⟩,
    ⟨key 5 (by omega) (k0_off11 i) _ (off_nowrap _ 5 hv (by omega)), key 5 (by omega) (k0_off11 i) _ (off_nowrap _ 5 hv (by omega))⟩,
    ⟨key 6 (by omega) (k0_off13 i) _ (off_nowrap _ 6 hv (by omega)), key 6 (by omega) (k0_off13 i) _ (off_nowrap _ 6 hv (by omega))⟩,
    key 7 (by omega) (k0_off15 i) _ (off_nowrap _ 7 hv (by omega))⟩

/-- Conversely, the words point `i` reads, entries 8 i … 8 i + 7 of the table, are below 1,000,000 when they pass their checks. -/
theorem rows_lt (h : Hyp i arg1 harg1 x0) (j : Fin 8) (hi : 8 * (i 0).val + j.val < 53248) :
    (x0 (ValueIdx.ix1 (n := 53248) ⟨8 * (i 0).val + j.val, hi⟩)).toNat < 1000000 := by
  have hv : (i 0).val < 6656 := (i 0).isLt
  match j, hi with
  | ⟨0, _⟩, hi => exact (fits_iff arg1 harg1 x0 i 0 (by omega) (k0_off1 i) _ (off_nowrap _ 0 hv (by omega)) hi).mp h.1.1
  | ⟨1, _⟩, hi => exact (fits_iff arg1 harg1 x0 i 1 (by omega) (k0_off3 i) _ (off_nowrap _ 1 hv (by omega)) hi).mp h.2.1.1
  | ⟨2, _⟩, hi => exact (fits_iff arg1 harg1 x0 i 2 (by omega) (k0_off5 i) _ (off_nowrap _ 2 hv (by omega)) hi).mp h.2.2.1.1
  | ⟨3, _⟩, hi => exact (fits_iff arg1 harg1 x0 i 3 (by omega) (k0_off7 i) _ (off_nowrap _ 3 hv (by omega)) hi).mp h.2.2.2.1.1
  | ⟨4, _⟩, hi => exact (fits_iff arg1 harg1 x0 i 4 (by omega) (k0_off9 i) _ (off_nowrap _ 4 hv (by omega)) hi).mp h.2.2.2.2.1.1
  | ⟨5, _⟩, hi => exact (fits_iff arg1 harg1 x0 i 5 (by omega) (k0_off11 i) _ (off_nowrap _ 5 hv (by omega)) hi).mp h.2.2.2.2.2.1.1
  | ⟨6, _⟩, hi => exact (fits_iff arg1 harg1 x0 i 6 (by omega) (k0_off13 i) _ (off_nowrap _ 6 hv (by omega)) hi).mp h.2.2.2.2.2.2.1.1
  | ⟨7, _⟩, hi => exact (fits_iff arg1 harg1 x0 i 7 (by omega) (k0_off15 i) _ (off_nowrap _ 7 hv (by omega)) hi).mp h.2.2.2.2.2.2.2

end Cert.KernelIdeal.Hand

end
-- ==== Proof.KernelTerm.lean ====
import proofs.«413815_j28827820491521_2_alg».proof.KernelIdeal
import proofs.«413815_j28827820491521_2_alg».proof.Proof.Spec

noncomputable section

namespace Cert.KernelIdeal.KTerm

open Idealize.ShloMosaic Cert.KernelIdeal
open Cert.KernelIdeal.Facts₀ Cert.KernelIdeal.Facts

variable {F : FTy → Type} [FloatOps F] [Cert.KernelIdeal.Facts]

def flatIds (ids : IVec S4096x26x2 32) : IVec S212992 32 := shapeCast S212992 ids shapeCasts_S4096x26x2_S212992

def tbl0 (ids : IVec S4096x26x2 32) : IVec S53248 32 := extractStridedSlice S53248 ![0] (flatIds ids) slices_S212992_S53248_0
def tbl1 (ids : IVec S4096x26x2 32) : IVec S53248 32 := extractStridedSlice S53248 ![53248] (flatIds ids) slices_S212992_S53248_53248
def tbl2 (ids : IVec S4096x26x2 32) : IVec S53248 32 := extractStridedSlice S53248 ![106496] (flatIds ids) slices_S212992_S53248_106496
def tbl3 (ids : IVec S4096x26x2 32) : IVec S53248 32 := extractStridedSlice S53248 ![159744] (flatIds ids) slices_S212992_S53248_159744

def assemble (o0 o1 o2 o3 : FVec F S53248x32 .f32) : FVec F S4096x26x2x32 .f32 :=
  shapeCast S4096x26x2x32
    (concatenate S212992x32 0 [⟨S53248x32, o0⟩, ⟨S53248x32, o1⟩, ⟨S53248x32, o2⟩, ⟨S53248x32, o3⟩]
      concatenates_S53248x32_S53248x32_S53248x32_S53248x32_S212992x32_d0)
    shapeCasts_S212992x32_S4096x26x2x32

def gathered (tbl : IVec S53248 32) (tab : FVec F S1000000x32 .f32) : FVec F S53248x32 .f32 :=
  fun y => tab (ValueIdx.ix2 (Cert.Spec.rowOf (tbl (ValueIdx.ix1 (n := 53248) ⟨(y 0).val, (y 0).isLt⟩))) (⟨(y 1).val, (y 1).isLt⟩ : Fin 32))

end Cert.KernelIdeal.KTerm

end
-- ==== Proof.TblRange.lean ====
import proofs.«413815_j28827820491521_2_alg».proof.Proof.Gen.KernelIdeal
import proofs.«413815_j28827820491521_2_alg».proof.Proof.KernelTerm
import proofs.«413815_j28827820491521_2_alg».proof.Proof.Spec
import Idealize.ShloMosaic.Lib.ValueIdx
import Idealize.ShloMosaic.Lib.Pipeline.Value

noncomputable section

namespace Cert.KernelIdeal.KValue

open Idealize.ShloMosaic Cert.KernelIdeal Cert.KernelIdeal.Gen

theorem slice_word_lt (ids : IVec S4096x26x2 32) (hin : Cert.Spec.InRange ids)
    (off : Fin S212992.rank → Nat) (h : S212992.Slices off S53248) (hoff : off 0 + 53248 ≤ 212992) (q : S53248.Idx) :
    (extractStridedSlice S53248 off (KTerm.flatIds ids) h q).toNat < 1000000 := by
  have hq : (q 0).val < 53248 := (q 0).isLt
  have hp : off 0 + (q 0).val < 212992 := by omega
  let k : S212992.Idx := ValueIdx.ix1 (n := 212992) ⟨off 0 + (q 0).val, hp⟩
  have e1 : extractStridedSlice S53248 off (KTerm.flatIds ids) h q = KTerm.flatIds ids k := by
    refine extractStridedSlice_apply off (KTerm.flatIds ids) h q k fun a => ?_
    match a with
    | ⟨0, _⟩ => rfl
  have hb : (off 0 + (q 0).val) / 52 < 4096 := by omega
  have hs : (off 0 + (q 0).val) / 2 % 26 < 26 := Nat.mod_lt _ (by decide)
  have hj : (off 0 + (q 0).val) % 2 < 2 := Nat.mod_lt _ (by decide)
  have e2 : KTerm.flatIds ids k = ids (ValueIdx.ix3 (n0 := 4096) (n1 := 26) (n2 := 2) ⟨_, hb⟩ ⟨_, hs⟩ ⟨_, hj⟩) := by
    unfold KTerm.flatIds
    refine shapeCast_apply ids _ k _ ?_
    rw [Shape.rowMajor_val_one, Shape.rowMajor_val_three]
    show ((off 0 + (q 0).val) / 52 * 26 + (off 0 + (q 0).val) / 2 % 26) * 2 + (off 0 + (q 0).val) % 2 = off 0 + (q 0).val
    omega
  rw [e1, e2]
  exact hin _

theorem tbl0_lt (ids : IVec S4096x26x2 32) (hin : Cert.Spec.InRange ids) (r : Fin 53248) :
    (KTerm.tbl0 ids (ValueIdx.ix1 (n := 53248) r)).toNat < 1000000 :=
  slice_word_lt ids hin _ _ (by decide) _
theorem tbl1_lt (ids : IVec S4096x26x2 32) (hin : Cert.Spec.InRange ids) (r : Fin 53248) :
    (KTerm.tbl1 ids (ValueIdx.ix1 (n := 53248) r)).toNat < 1000000 :=
  slice_word_lt ids hin _ _ (by decide) _
theorem tbl2_lt (ids : IVec S4096x26x2 32) (hin : Cert.Spec.InRange ids) (r : Fin 53248) :
    (KTerm.tbl2 ids (ValueIdx.ix1 (n := 53248) r)).toNat < 1000000 :=
  slice_word_lt ids hin _ _ (by decide) _
theorem tbl3_lt (ids : IVec S4096x26x2 32) (hin : Cert.Spec.InRange ids) (r : Fin 53248) :
    (KTerm.tbl3 ids (ValueIdx.ix1 (n := 53248) r)).toNat < 1000000 :=
  slice_word_lt ids hin _ _ (by decide) _

end Cert.KernelIdeal.KValue

end
-- ==== Proof.KI.Stages.lean ====
import proofs.«413815_j28827820491521_2_alg».proof.Proof.KI.Region0
import proofs.«413815_j28827820491521_2_alg».proof.Proof.KI.Region1
import proofs.«413815_j28827820491521_2_alg».proof.Proof.KI.Region2
import proofs.«413815_j28827820491521_2_alg».proof.Proof.KI.Region3
import proofs.«413815_j28827820491521_2_alg».proof.Proof.KI.Hyp
import proofs.«413815_j28827820491521_2_alg».proof.Proof.TblRange
import proofs.«413815_j28827820491521_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev c0 : Dev nD := ⟨0, Nat.one_pos⟩
theorem eq_c0 (c : Dev nD) : c = c0 := Subsingleton.elim _ _

variable (m : (ℓ : Loc nD τ sig) → Buf (Elt F) ℓ)

abbrev HIn : Prop := ∀ c : Dev nD, Cert.Spec.InRange (m ((c : Thread nD τ).loc main_arg0))

abbrev U1 (c : Dev nD) : Valuation τ sig (Elt F) := V1 m c

abbrev U1r (c : Dev nD) : (b : Ref sig .tc) → Buf (Elt F) ((c : Thread nD τ).loc b) := fun b => U1 m c b

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

def a0 (hin : HIn m) : (pcfg0 (F := F)).Adm := ⟨fun k => U1 m c0 (pre0.ref k), trivial⟩

theorem tb0_eq (hin : HIn m) : tb0 (a0 m hin) = KTerm.tbl0 (m ((c0 : Thread nD τ).loc main_arg0)) := by
  show U1 m c0 main_v1 = _
  show StableHlo.after hostOps0 (fun b => m (c0, b)) (Proc.devRef .tc main_v1) = _
  after_results; rfl

theorem hH0 (hin : HIn m) (t : Fin (cfg0 (a0 m hin)).N) : Hyp0 ((cfg0 (a0 m hin)).grid.coords t) (tb0 (a0 m hin)) :=
  hyp_of _ _ _ _ (fun r => by rw [tb0_eq]; exact KValue.tbl0_lt _ (hin c0) r)

def d0 (hin : HIn m) (c : Dev nD) : Dat τ (Elt F) Unit ℕ (Pipeline.UD sig nD τ) ℕ (cfg0 (a0 m hin)) c :=
  dat0 (fun c b => U1 m c b) (a0 m hin) (hH0 m hin) c

def o2 (hin : HIn m) (c : Dev nD) : Buf (Elt F) ((c : Thread nD τ).loc main_v2) := (d0 m hin c).arrAt 0 (cfg0 (a0 m hin)).N

def U2 (hin : HIn m) (c : Dev nD) : Valuation τ sig (Elt F) := Function.update (U1 m c) main_v2 (o2 m hin c)
abbrev U2r (hin : HIn m) (c : Dev nD) : (b : Ref sig .tc) → Buf (Elt F) ((c : Thread nD τ).loc b) := fun b => U2 m hin c b

def U3 (hin : HIn m) (c : Dev nD) : Valuation τ sig (Elt F) := StableHlo.after hostOps1 (U2 m hin c)
abbrev U3r (hin : HIn m) (c : Dev nD) : (b : Ref sig .tc) → Buf (Elt F) ((c : Thread nD τ).loc b) := fun b => U3 m hin c b

theorem U2_self (hin : HIn m) (c : Dev nD) : U2 m hin c main_v2 = o2 m hin c := by
  unfold U2; exact Function.update_self ..
theorem U2_of (hin : HIn m) (c : Dev nD) (r : Ref sig .tc) (h : r ≠ main_v2) : U2 m hin c r = U1 m c r := by
  unfold U2; exact Function.update_of_ne (StableHlo.devRef_ne_of_ne h) _ _

theorem U2_v0 (hin : HIn m) : U2 m hin c0 main_v0 = U1 m c0 main_v0 := by
  rw [U2_of m hin c0 main_v0 (by decide)]

def a1 (hin : HIn m) : (pcfg1 (F := F)).Adm := ⟨fun k => U3 m hin c0 (pre1.ref k), trivial⟩

theorem tb1_eq (hin : HIn m) : tb1 (a1 m hin) = KTerm.tbl1 (m ((c0 : Thread nD τ).loc main_arg0)) := by
  show U3 m hin c0 main_v3 = _
  show StableHlo.after hostOps1 (U2 m hin c0) (Proc.devRef .tc main_v3) = _
  after_results
  rw [U2_v0]; rfl

theorem hH1 (hin : HIn m) (t : Fin (cfg1 (a1 m hin)).N) : Hyp1 ((cfg1 (a1 m hin)).grid.coords t) (tb1 (a1 m hin)) :=
  hyp_of _ _ _ _ (fun r => by rw [tb1_eq]; exact KValue.tbl1_lt _ (hin c0) r)

def d1 (hin : HIn m) (c : Dev nD) : Dat τ (Elt F) Unit ℕ (Pipeline.UD sig nD τ) ℕ (cfg1 (a1 m hin)) c :=
  dat1 (fun c b => U3 m hin c b) (a1 m hin) (hH1 m hin) c

def o4 (hin : HIn m) (c : Dev nD) : Buf (Elt F) ((c : Thread nD τ).loc main_v4) := (d1 m hin c).arrAt 0 (cfg1 (a1 m hin)).N

def U4 (hin : HIn m) (c : Dev nD) : Valuation τ sig (Elt F) := Function.update (U3 m hin c) main_v4 (o4 m hin c)
abbrev U4r (hin : HIn m) (c : Dev nD) : (b : Ref sig .tc) → Buf (Elt F) ((c : Thread nD τ).loc b) := fun b => U4 m hin c b

def U5 (hin : HIn m) (c : Dev nD) : Valuation τ sig (Elt F) := StableHlo.after hostOps2 (U4 m hin c)
abbrev U5r (hin : HIn m) (c : Dev nD) : (b : Ref sig .tc) → Buf (Elt F) ((c : Thread nD τ).loc b) := fun b => U5 m hin c b

theorem U4_self (hin : HIn m) (c : Dev nD) : U4 m hin c main_v4 = o4 m hin c := by
  unfold U4; exact Function.update_self ..
theorem U4_of (hin : HIn m) (c : Dev nD) (r : Ref sig .tc) (h : r ≠ main_v4) : U4 m hin c r = U3 m hin c r := by
  unfold U4; exact Function.update_of_ne (StableHlo.devRef_ne_of_ne h) _ _

theorem U4_v0 (hin : HIn m) : U4 m hin c0 main_v0 = U1 m c0 main_v0 := by
  rw [U4_of m hin c0 main_v0 (by decide)]
  show StableHlo.after hostOps1 (U2 m hin c0) (Proc.devRef .tc main_v0) = _
  rw [StableHlo.after_of_writes_sub hostOps1 _ hostOps1_writes (by decide : main_v0 ∉ hostOps1_W)]
  exact U2_v0 m hin

def a2 (hin : HIn m) : (pcfg2 (F := F)).Adm := ⟨fun k => U5 m hin c0 (pre2.ref k), trivial⟩

theorem tb2_eq (hin : HIn m) : tb2 (a2 m hin) = KTerm.tbl2 (m ((c0 : Thread nD τ).loc main_arg0)) := by
  show U5 m hin c0 main_v5 = _
  show StableHlo.after hostOps2 (U4 m hin c0) (Proc.devRef .tc main_v5) = _
  after_results
  rw [U4_v0]; rfl

theorem hH2 (hin : HIn m) (t : Fin (cfg2 (a2 m hin)).N) : Hyp2 ((cfg2 (a2 m hin)).grid.coords t) (tb2 (a2 m hin)) :=
  hyp_of _ _ _ _ (fun r => by rw [tb2_eq]; exact KValue.tbl2_lt _ (hin c0) r)

def d2 (hin : HIn m) (c : Dev nD) : Dat τ (Elt F) Unit ℕ (Pipeline.UD sig nD τ) ℕ (cfg2 (a2 m hin)) c :=
  dat2 (fun c b => U5 m hin c b) (a2 m hin) (hH2 m hin) c

def o6 (hin : HIn m) (c : Dev nD) : Buf (Elt F) ((c : Thread nD τ).loc main_v6) := (d2 m hin c).arrAt 0 (cfg2 (a2 m hin)).N

def U6 (hin : HIn m) (c : Dev nD) : Valuation τ sig (Elt F) := Function.update (U5 m hin c) main_v6 (o6 m hin c)
abbrev U6r (hin : HIn m) (c : Dev nD) : (b : Ref sig .tc) → Buf (Elt F) ((c : Thread nD τ).loc b) := fun b => U6 m hin c b

def U7 (hin : HIn m) (c : Dev nD) : Valuation τ sig (Elt F) := StableHlo.after hostOps3 (U6 m hin c)
abbrev U7r (hin : HIn m) (c : Dev nD) : (b : Ref sig .tc) → Buf (Elt F) ((c : Thread nD τ).loc b) := fun b => U7 m hin c b

theorem U6_self (hin : HIn m) (c : Dev nD) : U6 m hin c main_v6 = o6 m hin c := by
  unfold U6; exact Function.update_self ..
theorem U6_of (hin : HIn m) (c : Dev nD) (r : Ref sig .tc) (h : r ≠ main_v6) : U6 m hin c r = U5 m hin c r := by
  unfold U6; exact Function.update_of_ne (StableHlo.devRef_ne_of_ne h) _ _

theorem U6_v0 (hin : HIn m) : U6 m hin c0 main_v0 = U1 m c0 main_v0 := by
  rw [U6_of m hin c0 main_v0 (by decide)]
  show StableHlo.after hostOps2 (U4 m hin c0) (Proc.devRef .tc main_v0) = _
  rw [StableHlo.after_of_writes_sub hostOps2 _ hostOps2_writes (by decide : main_v0 ∉ hostOps2_W)]
  exact U4_v0 m hin

def a3 (hin : HIn m) : (pcfg3 (F := F)).Adm := ⟨fun k => U7 m hin c0 (pre3.ref k), trivial⟩

theorem tb3_eq (hin : HIn m) : tb3 (a3 m hin) = KTerm.tbl3 (m ((c0 : Thread nD τ).loc main_arg0)) := by
  show U7 m hin c0 main_v7 = _
  show StableHlo.after hostOps3 (U6 m hin c0) (Proc.devRef .tc main_v7) = _
  after_results
  rw [U6_v0]; rfl

theorem hH3 (hin : HIn m) (t : Fin (cfg3 (a3 m hin)).N) : Hyp3 ((cfg3 (a3 m hin)).grid.coords t) (tb3 (a3 m hin)) :=
  hyp_of _ _ _ _ (fun r => by rw [tb3_eq]; exact KValue.tbl3_lt _ (hin c0) r)

def d3 (hin : HIn m) (c : Dev nD) : Dat τ (Elt F) Unit ℕ (Pipeline.UD sig nD τ) ℕ (cfg3 (a3 m hin)) c :=
  dat3 (fun c b => U7 m hin c b) (a3 m hin) (hH3 m hin) c

def o8 (hin : HIn m) (c : Dev nD) : Buf (Elt F) ((c : Thread nD τ).loc main_v8) := (d3 m hin c).arrAt 0 (cfg3 (a3 m hin)).N

def U8 (hin : HIn m) (c : Dev nD) : Valuation τ sig (Elt F) := Function.update (U7 m hin c) main_v8 (o8 m hin c)
abbrev U8r (hin : HIn m) (c : Dev nD) : (b : Ref sig .tc) → Buf (Elt F) ((c : Thread nD τ).loc b) := fun b => U8 m hin c b

def U9 (hin : HIn m) (c : Dev nD) : Valuation τ sig (Elt F) := StableHlo.after hostOps4 (U8 m hin c)

theorem U8_self (hin : HIn m) (c : Dev nD) : U8 m hin c main_v8 = o8 m hin c := by
  unfold U8; exact Function.update_self ..
theorem U8_of (hin : HIn m) (c : Dev nD) (r : Ref sig .tc) (h : r ≠ main_v8) : U8 m hin c r = U7 m hin c r := by
  unfold U8; exact Function.update_of_ne (StableHlo.devRef_ne_of_ne h) _ _

theorem U8_v0 (hin : HIn m) : U8 m hin c0 main_v0 = U1 m c0 main_v0 := by
  rw [U8_of m hin c0 main_v0 (by decide)]
  show StableHlo.after hostOps3 (U6 m hin c0) (Proc.devRef .tc main_v0) = _
  rw [StableHlo.after_of_writes_sub hostOps3 _ hostOps3_writes (by decide : main_v0 ∉ hostOps3_W)]
  exact U6_v0 m hin

def outs (hin : HIn m) : Outs (F := F) := fun J r c =>
  match J with
  | 2 => U2 m hin c r
  | 4 => U4 m hin c r
  | 6 => U6 m hin c r
  | _ => U8 m hin c r

def adm (hin : HIn m) : (p : Fin 4) → (pcfgs (F := F) p).Adm
  | ⟨0, _⟩ => a0 m hin
  | ⟨1, _⟩ => a1 m hin
  | ⟨2, _⟩ => a2 m hin
  | ⟨3, _⟩ => a3 m hin

def pdats (hin : HIn m) : (p : Fin 4) → (c : Dev nD) → Dat τ (Elt F) Unit ℕ (Pipeline.UD sig nD τ) ℕ (Pipeline.pin (pcfgs (F := F)) (adm m hin) p) c
  | ⟨0, _⟩ => fun c => d0 m hin c
  | ⟨1, _⟩ => fun c => d1 m hin c
  | ⟨2, _⟩ => fun c => d2 m hin c
  | ⟨3, _⟩ => fun c => d3 m hin c

theorem V2_eq (hin : HIn m) (c : Dev nD) : V2 m (outs m hin) c = U2 m hin c := by
  show Function.update (V1 m c) main_v2 (U2 m hin c main_v2) = U2 m hin c
  rw [U2_self]; rfl
theorem V3_eq (hin : HIn m) (c : Dev nD) : V3 m (outs m hin) c = U3 m hin c := by
  show StableHlo.after hostOps1 (V2 m (outs m hin) c) = _; rw [V2_eq]; rfl
theorem V4_eq (hin : HIn m) (c : Dev nD) : V4 m (outs m hin) c = U4 m hin c := by
  show Function.update (V3 m (outs m hin) c) main_v4 (U4 m hin c main_v4) = U4 m hin c
  rw [V3_eq, U4_self]; rfl
theorem V5_eq (hin : HIn m) (c : Dev nD) : V5 m (outs m hin) c = U5 m hin c := by
  show StableHlo.after hostOps2 (V4 m (outs m hin) c) = _; rw [V4_eq]; rfl
theorem V6_eq (hin : HIn m) (c : Dev nD) : V6 m (outs m hin) c = U6 m hin c := by
  show Function.update (V5 m (outs m hin) c) main_v6 (U6 m hin c main_v6) = U6 m hin c
  rw [V5_eq, U6_self]; rfl
theorem V7_eq (hin : HIn m) (c : Dev nD) : V7 m (outs m hin) c = U7 m hin c := by
  show StableHlo.after hostOps3 (V6 m (outs m hin) c) = _; rw [V6_eq]; rfl
theorem V8_eq (hin : HIn m) (c : Dev nD) : V8 m (outs m hin) c = U8 m hin c := by
  show Function.update (V7 m (outs m hin) c) main_v8 (U8 m hin c main_v8) = U8 m hin c
  rw [V7_eq, U8_self]; rfl
theorem V9_eq (hin : HIn m) (c : Dev nD) : V9 m (outs m hin) c = U9 m hin c := by
  show StableHlo.after hostOps4 (V8 m (outs m hin) c) = _; rw [V8_eq]; rfl

end Cert.KernelIdeal.Hand

end
-- ==== Proof.KI.Reg0.lean ====
import proofs.«413815_j28827820491521_2_alg».proof.Proof.KI.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg0 : Pipeline.RegionSeg (pcfgs (F := F)) (adm m hin) (pdats m hin) () defs₀ 𝒱₀ L lv 0 where
  win := (launch0 (F := F)).win.to₀
  block_pos := (launch0 (F := F)).block_pos
  stage_whole := (launch0 (F := F)).stage_whole
  K := Fin 8
  osem := osem0
  ho := ownSemFacts0
  hbody c := (body_obligation0 (fun c b => U1 m c b) (a0 m hin) (hH0 m hin) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m hin c) ∗ R c)
  X c := iprop((∃ r, prngReg c r) ∗ Pipeline.ownSems0 (Ix := Unit) (Name := ℕ) (U := Pipeline.UD sig nD τ) (Lvl := ℕ) (Val := Elt F) (τ := τ) osem0 c
    ∗ (bigSep Hop0 fun b => (((c : Thread nD τ)).loc b) ↦{fullShare} U1 m c b))
  Y c := iprop((∃ r, prngReg c r) ∗ (bigSep Hop0 fun b => (((c : Thread nD τ)).loc b) ↦{fullShare} U1 m c b)
    ∗ Pipeline.prefHeld (Ix := Unit) (Name := ℕ) (U := Pipeline.UD sig nD τ) (Lvl := ℕ) pre0 c (fun _ => fullShare) (a0 m hin).1)
  Z c := bigSep (Pipeline.restRefsP sig pre0 spec0 \ Hop0) fun b => (((c : Thread nD τ)).loc b) ↦{fullShare} U1 m c b
  hentry c := by
    obtain rfl := eq_c0 c
    have hsplit := Pipeline.arrays_of_unscopedBufs (p := 0) (pcfgs (F := F)) (adm m hin) (pdats m hin) (launch0 (F := F)).win (launch0 (F := F)).arr_whole c0
      ((pdats m hin 0 c0).share_full fun _ => rfl) (U1r m c0) fun _ => rfl
    rw [Pipeline.unscopedBufs_held] at hsplit
    have hT := Pipeline.unscopedRest_split (Ix := Unit) (Name := ℕ) (U := Pipeline.UD sig nD τ) (Lvl := ℕ) (Val := Elt F) preFacts0 c0 (U1r m c0)
    have hH := Pipeline.unscopedRestP_sdiff (Val := Elt F) pre0 spec0 Hop0 Hop0_subP c0 (U1r m c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 0 c).Φ 0 = iprop(Pipeline.ΦD osem0 spec0 Hop0 (fun c b => U1 m c b) c
      ∗ Pipeline.prefHeld (Ix := Unit) (Name := ℕ) (U := Pipeline.UD sig nD τ) (Lvl := ℕ) pre0 c (fun _ => fullShare) (a0 m hin).1) from rfl, Pipeline.ΦD_eq]
    iintro ⟨⟨Hp, Ho, HH⟩, Hpf, Hr⟩
    iframe Hr Hp Ho HH
    iexact Hpf
  hout c := by
    rw [show (pdats m hin 0 c).Φ (Fin.last _) = iprop(Pipeline.ΦD osem0 spec0 Hop0 (fun c b => U1 m c b) c
      ∗ Pipeline.prefHeld (Ix := Unit) (Name := ℕ) (U := Pipeline.UD sig nD τ) (Lvl := ℕ) pre0 c (fun _ => fullShare) (a0 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 0) (pcfgs (F := F)) (adm m hin) (Ix := Unit) (Name := ℕ) (U := Pipeline.UD sig nD τ) (Lvl := ℕ)
      (launch0 (F := F)).win (launch0 (F := F)).arr_whole c0 (pdats m hin) ((pdats m hin 0 c0).share_full fun _ => rfl)
      (U1r m c0) (U2r m hin c0) ((pdats m hin 0 c0).arrAt · (cfg0 (a0 m hin)).N)
      (fun w => match w with | ⟨0, _⟩ => (U2_self m hin c0).symm)
      (fun b hb => U2_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts0 c0 (U1r m c0)
    have hH := Pipeline.unscopedRestP_sdiff (Val := Elt F) pre0 spec0 Hop0 Hop0_subP c0 (U1r m c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«413815_j28827820491521_2_alg».proof.Proof.KI.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg1 : Pipeline.RegionSeg (pcfgs (F := F)) (adm m hin) (pdats m hin) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := (body_obligation1 (fun c b => U3 m hin c b) (a1 m hin) (hH1 m hin) c).loose
  hwaits := Pipeline.hwaits_of_owed_zero _ _ _ _ L lv 1 fun _ _ => rfl
  pre c := iprop(StableHlo.held (c : Thread nD τ) (Pipeline.ucRefs τ sig) (U3 m hin c) ∗ R c)
  post c := iprop(StableHlo.held (c : Thread nD τ) (Pipeline.ucRefs τ sig) (U4 m hin c) ∗ R c)
  X c := iprop((∃ r, prngReg c r) ∗ Pipeline.ownSems0 (Ix := Unit) (Name := ℕ) (U := Pipeline.UD sig nD τ) (Lvl := ℕ) (Val := Elt F) (τ := τ) osem1 c
    ∗ (bigSep Hop1 fun b => (((c : Thread nD τ)).loc b) ↦{fullShare} U3 m hin c b))
  Y c := iprop((∃ r, prngReg c r) ∗ (bigSep Hop1 fun b => (((c : Thread nD τ)).loc b) ↦{fullShare} U3 m hin c b)
    ∗ Pipeline.prefHeld (Ix := Unit) (Name := ℕ) (U := Pipeline.UD sig nD τ) (Lvl := ℕ) pre1 c (fun _ => fullShare) (a1 m hin).1)
  Z c := bigSep (Pipeline.restRefsP sig pre1 spec1 \ Hop1) fun b => (((c : Thread nD τ)).loc b) ↦{fullShare} U3 m hin c b
  hentry c := by
    obtain rfl := eq_c0 c
    have hsplit := Pipeline.arrays_of_unscopedBufs (p := 1) (pcfgs (F := F)) (adm m hin) (pdats m hin) (launch1 (F := F)).win (launch1 (F := F)).arr_whole c0
      ((pdats m hin 1 c0).share_full fun _ => rfl) (U3r m hin c0) fun _ => rfl
    rw [Pipeline.unscopedBufs_held] at hsplit
    have hT := Pipeline.unscopedRest_split (Ix := Unit) (Name := ℕ) (U := Pipeline.UD sig nD τ) (Lvl := ℕ) (Val := Elt F) preFacts1 c0 (U3r m hin c0)
    have hH := Pipeline.unscopedRestP_sdiff (Val := Elt F) pre1 spec1 Hop1 Hop1_subP c0 (U3r m hin c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 1 c).Φ 0 = iprop(Pipeline.ΦD osem1 spec1 Hop1 (fun c b => U3 m hin c b) c
      ∗ Pipeline.prefHeld (Ix := Unit) (Name := ℕ) (U := Pipeline.UD sig nD τ) (Lvl := ℕ) pre1 c (fun _ => fullShare) (a1 m hin).1) from rfl, Pipeline.ΦD_eq]
    iintro ⟨⟨Hp, Ho, HH⟩, Hpf, Hr⟩
    iframe Hr Hp Ho HH
    iexact Hpf
  hout c := by
    rw [show (pdats m hin 1 c).Φ (Fin.last _) = iprop(Pipeline.ΦD osem1 spec1 Hop1 (fun c b => U3 m hin c b) c
      ∗ Pipeline.prefHeld (Ix := Unit) (Name := ℕ) (U := Pipeline.UD sig nD τ) (Lvl := ℕ) pre1 c (fun _ => fullShare) (a1 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 1) (pcfgs (F := F)) (adm m hin) (Ix := Unit) (Name := ℕ) (U := Pipeline.UD sig nD τ) (Lvl := ℕ)
      (launch1 (F := F)).win (launch1 (F := F)).arr_whole c0 (pdats m hin) ((pdats m hin 1 c0).share_full fun _ => rfl)
      (U3r m hin c0) (U4r m hin c0) ((pdats m hin 1 c0).arrAt · (cfg1 (a1 m hin)).N)
      (fun w => match w with | ⟨0, _⟩ => (U4_self m hin c0).symm)
      (fun b hb => U4_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts1 c0 (U3r m hin c0)
    have hH := Pipeline.unscopedRestP_sdiff (Val := Elt F) pre1 spec1 Hop1 Hop1_subP c0 (U3r m hin c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«413815_j28827820491521_2_alg».proof.Proof.KI.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg2 : Pipeline.RegionSeg (pcfgs (F := F)) (adm m hin) (pdats m hin) () defs₀ 𝒱₀ L lv 2 where
  win := (launch2 (F := F)).win.to₀
  block_pos := (launch2 (F := F)).block_pos
  stage_whole := (launch2 (F := F)).stage_whole
  K := Fin 8
  osem := osem2
  ho := ownSemFacts2
  hbody c := (body_obligation2 (fun c b => U5 m hin c b) (a2 m hin) (hH2 m hin) c).loose
  hwaits := Pipeline.hwaits_of_owed_zero _ _ _ _ L lv 2 fun _ _ => rfl
  pre c := iprop(StableHlo.held (c : Thread nD τ) (Pipeline.ucRefs τ sig) (U5 m hin c) ∗ R c)
  post c := iprop(StableHlo.held (c : Thread nD τ) (Pipeline.ucRefs τ sig) (U6 m hin c) ∗ R c)
  X c := iprop((∃ r, prngReg c r) ∗ Pipeline.ownSems0 (Ix := Unit) (Name := ℕ) (U := Pipeline.UD sig nD τ) (Lvl := ℕ) (Val := Elt F) (τ := τ) osem2 c
    ∗ (bigSep Hop2 fun b => (((c : Thread nD τ)).loc b) ↦{fullShare} U5 m hin c b))
  Y c := iprop((∃ r, prngReg c r) ∗ (bigSep Hop2 fun b => (((c : Thread nD τ)).loc b) ↦{fullShare} U5 m hin c b)
    ∗ Pipeline.prefHeld (Ix := Unit) (Name := ℕ) (U := Pipeline.UD sig nD τ) (Lvl := ℕ) pre2 c (fun _ => fullShare) (a2 m hin).1)
  Z c := bigSep (Pipeline.restRefsP sig pre2 spec2 \ Hop2) fun b => (((c : Thread nD τ)).loc b) ↦{fullShare} U5 m hin c b
  hentry c := by
    obtain rfl := eq_c0 c
    have hsplit := Pipeline.arrays_of_unscopedBufs (p := 2) (pcfgs (F := F)) (adm m hin) (pdats m hin) (launch2 (F := F)).win (launch2 (F := F)).arr_whole c0
      ((pdats m hin 2 c0).share_full fun _ => rfl) (U5r m hin c0) fun _ => rfl
    rw [Pipeline.unscopedBufs_held] at hsplit
    have hT := Pipeline.unscopedRest_split (Ix := Unit) (Name := ℕ) (U := Pipeline.UD sig nD τ) (Lvl := ℕ) (Val := Elt F) preFacts2 c0 (U5r m hin c0)
    have hH := Pipeline.unscopedRestP_sdiff (Val := Elt F) pre2 spec2 Hop2 Hop2_subP c0 (U5r m hin c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 2 c).Φ 0 = iprop(Pipeline.ΦD osem2 spec2 Hop2 (fun c b => U5 m hin c b) c
      ∗ Pipeline.prefHeld (Ix := Unit) (Name := ℕ) (U := Pipeline.UD sig nD τ) (Lvl := ℕ) pre2 c (fun _ => fullShare) (a2 m hin).1) from rfl, Pipeline.ΦD_eq]
    iintro ⟨⟨Hp, Ho, HH⟩, Hpf, Hr⟩
    iframe Hr Hp Ho HH
    iexact Hpf
  hout c := by
    rw [show (pdats m hin 2 c).Φ (Fin.last _) = iprop(Pipeline.ΦD osem2 spec2 Hop2 (fun c b => U5 m hin c b) c
      ∗ Pipeline.prefHeld (Ix := Unit) (Name := ℕ) (U := Pipeline.UD sig nD τ) (Lvl := ℕ) pre2 c (fun _ => fullShare) (a2 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 2) (pcfgs (F := F)) (adm m hin) (Ix := Unit) (Name := ℕ) (U := Pipeline.UD sig nD τ) (Lvl := ℕ)
      (launch2 (F := F)).win (launch2 (F := F)).arr_whole c0 (pdats m hin) ((pdats m hin 2 c0).share_full fun _ => rfl)
      (U5r m hin c0) (U6r m hin c0) ((pdats m hin 2 c0).arrAt · (cfg2 (a2 m hin)).N)
      (fun w => match w with | ⟨0, _⟩ => (U6_self m hin c0).symm)
      (fun b hb => U6_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts2 c0 (U5r m hin c0)
    have hH := Pipeline.unscopedRestP_sdiff (Val := Elt F) pre2 spec2 Hop2 Hop2_subP c0 (U5r m hin c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«413815_j28827820491521_2_alg».proof.Proof.KI.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hin : HIn m)

set_option backward.isDefEq.respectTransparency.types false in
def reg3 : Pipeline.RegionSeg (pcfgs (F := F)) (adm m hin) (pdats m hin) () defs₀ 𝒱₀ L lv 3 where
  win := (launch3 (F := F)).win.to₀
  block_pos := (launch3 (F := F)).block_pos
  stage_whole := (launch3 (F := F)).stage_whole
  K := Fin 8
  osem := osem3
  ho := ownSemFacts3
  hbody c := (body_obligation3 (fun c b => U7 m hin c b) (a3 m hin) (hH3 m hin) c).loose
  hwaits := Pipeline.hwaits_of_owed_zero _ _ _ _ L lv 3 fun _ _ => rfl
  pre c := iprop(StableHlo.held (c : Thread nD τ) (Pipeline.ucRefs τ sig) (U7 m hin c) ∗ R c)
  post c := iprop(StableHlo.held (c : Thread nD τ) (Pipeline.ucRefs τ sig) (U8 m hin c) ∗ R c)
  X c := iprop((∃ r, prngReg c r) ∗ Pipeline.ownSems0 (Ix := Unit) (Name := ℕ) (U := Pipeline.UD sig nD τ) (Lvl := ℕ) (Val := Elt F) (τ := τ) osem3 c
    ∗ (bigSep Hop3 fun b => (((c : Thread nD τ)).loc b) ↦{fullShare} U7 m hin c b))
  Y c := iprop((∃ r, prngReg c r) ∗ (bigSep Hop3 fun b => (((c : Thread nD τ)).loc b) ↦{fullShare} U7 m hin c b)
    ∗ Pipeline.prefHeld (Ix := Unit) (Name := ℕ) (U := Pipeline.UD sig nD τ) (Lvl := ℕ) pre3 c (fun _ => fullShare) (a3 m hin).1)
  Z c := bigSep (Pipeline.restRefsP sig pre3 spec3 \ Hop3) fun b => (((c : Thread nD τ)).loc b) ↦{fullShare} U7 m hin c b
  hentry c := by
    obtain rfl := eq_c0 c
    have hsplit := Pipeline.arrays_of_unscopedBufs (p := 3) (pcfgs (F := F)) (adm m hin) (pdats m hin) (launch3 (F := F)).win (launch3 (F := F)).arr_whole c0
      ((pdats m hin 3 c0).share_full fun _ => rfl) (U7r m hin c0) fun _ => rfl
    rw [Pipeline.unscopedBufs_held] at hsplit
    have hT := Pipeline.unscopedRest_split (Ix := Unit) (Name := ℕ) (U := Pipeline.UD sig nD τ) (Lvl := ℕ) (Val := Elt F) preFacts3 c0 (U7r m hin c0)
    have hH := Pipeline.unscopedRestP_sdiff (Val := Elt F) pre3 spec3 Hop3 Hop3_subP c0 (U7r m hin c0)
    iintro ⟨⟨Hub, Hp, HO⟩, Hos, -⟩
    ihave H := hsplit $$ Hub
    icases H with ⟨Ha, Hrest⟩
    ihave H' := (Entails.of_eq hT) $$ Hrest
    icases H' with ⟨Hpf, HrestP⟩
    ihave H'' := (Entails.of_eq hH) $$ HrestP
    icases H'' with ⟨HH, HR⟩
    imodintro
    iframe Ha Hp Hos HH HR
    isplitl [Hpf]; · iexact Hpf
    unfold Pipeline.Dat.owesAt Pipeline.owesWithin
    icases HO with ⟨%W, HO⟩; iexists W; isplitr; · ipureintro; exact fun _ _ => Or.inl trivial
    iexact HO
  hin c := by
    rw [show (pdats m hin 3 c).Φ 0 = iprop(Pipeline.ΦD osem3 spec3 Hop3 (fun c b => U7 m hin c b) c
      ∗ Pipeline.prefHeld (Ix := Unit) (Name := ℕ) (U := Pipeline.UD sig nD τ) (Lvl := ℕ) pre3 c (fun _ => fullShare) (a3 m hin).1) from rfl, Pipeline.ΦD_eq]
    iintro ⟨⟨Hp, Ho, HH⟩, Hpf, Hr⟩
    iframe Hr Hp Ho HH
    iexact Hpf
  hout c := by
    rw [show (pdats m hin 3 c).Φ (Fin.last _) = iprop(Pipeline.ΦD osem3 spec3 Hop3 (fun c b => U7 m hin c b) c
      ∗ Pipeline.prefHeld (Ix := Unit) (Name := ℕ) (U := Pipeline.UD sig nD τ) (Lvl := ℕ) pre3 c (fun _ => fullShare) (a3 m hin).1) from rfl, Pipeline.ΦD_eq]
    iintro ⟨⟨Hr, Hp, Ho, HH⟩, Hpf⟩
    iframe Hp HH Hpf Ho Hr
  hexit c := by
    obtain rfl := eq_c0 c
    have hjoin := Pipeline.unscopedBufs_of_arrays (p := 3) (pcfgs (F := F)) (adm m hin) (Ix := Unit) (Name := ℕ) (U := Pipeline.UD sig nD τ) (Lvl := ℕ)
      (launch3 (F := F)).win (launch3 (F := F)).arr_whole c0 (pdats m hin) ((pdats m hin 3 c0).share_full fun _ => rfl)
      (U7r m hin c0) (U8r m hin c0) ((pdats m hin 3 c0).arrAt · (cfg3 (a3 m hin)).N)
      (fun w => match w with | ⟨0, _⟩ => (U8_self m hin c0).symm)
      (fun b hb => U8_of m hin c0 b fun e => hb (Finset.mem_image.mpr ⟨0, Finset.mem_univ _, e.symm⟩))
    rw [Pipeline.unscopedBufs_held] at hjoin
    have hT := Pipeline.unscopedRest_split (Ix := Unit) (Name := ℕ) (U := Pipeline.UD sig nD τ) (Lvl := ℕ) (Val := Elt F) preFacts3 c0 (U7r m hin c0)
    have hH := Pipeline.unscopedRestP_sdiff (Val := Elt F) pre3 spec3 Hop3 Hop3_subP c0 (U7r m hin c0)
    iintro ⟨Ha, HO, ⟨HY, HH, Hpf⟩, HR⟩
    ihave HrestP := (Entails.of_eq hH.symm) $$ [HH HR]
    · iframe HH HR
    ihave Hrest := (Entails.of_eq hT.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«413815_j28827820491521_2_alg».proof.Proof.KI.Reg0
import proofs.«413815_j28827820491521_2_alg».proof.Proof.KI.Reg1
import proofs.«413815_j28827820491521_2_alg».proof.Proof.KI.Reg2
import proofs.«413815_j28827820491521_2_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hin : HIn m)

abbrev u₀ : Pipeline.UD sig nD τ :=
  (initOf (Pipeline.cells (Pipeline.pin (pcfgs (F := F)) (adm m hin)) (cellOf_inj (adm m hin)))
    (Pipeline.launchToks (Pipeline.pin (pcfgs (F := F)) (adm m hin)) (cellOf_inj (adm m hin))), 1)

theorem hu₀ : (ownU (u₀ m hin) : sProp 𝕄) ⊢ |={Set.univ}=> iprop(BI.own ((embL : Emb (UR sig nD τ) 𝕄) (initOf (Pipeline.cells (Pipeline.pin (pcfgs (F := F)) (adm m hin)) (cellOf_inj (adm m hin))) (Pipeline.launchToks (Pipeline.pin (pcfgs (F := F)) (adm m hin)) (cellOf_inj (adm m hin)))))
      ∗ bigSep Finset.univ (fun _ : Dev nD => (BI.emp : sProp 𝕄))) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hper : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (R (F := F) c : sProp 𝕄) := fun c => by
    iintro ⟨-, HO, -, Hp, -⟩
    isplitl [Hp]; · iexists _; iexact Hp
    iexists ∅; iexact HO
  have hall : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) := bigSep_mono fun c _ => hper c
  iintro ⟨H, -⟩
  imodintro
  iapply hall
  iexact H

theorem hE4 (c : Dev nD) : (R (F := F) c : sProp 𝕄) ⊢ (iprop(∃ W, owes (c : Thread nD τ) (0 : CellTallies nD τ sig Unit) W) : sProp 𝕄) := by
  iintro ⟨-, HO⟩; iexact HO

set_option backward.isDefEq.respectTransparency.types false in
include hin in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (embL : Emb (UR sig nD τ) 𝕄) () 𝒱₀ L lv (fun _ _ => rfl) ρ (outs m hin) (adm m hin) (pdats m hin)
    0 (fun _ => BI.emp) (u₀ m hin) (hu₀ m hin) (fun _ c => R c) (hE0 ρ) hE4
    (reg0 m hin) (fun c => .rfl) (fun c => by rw [V2_eq]; exact .rfl)
    (reg1 m hin) (fun c => by rw [V3_eq]; exact .rfl) (fun c => by rw [V4_eq]; exact .rfl)
    (reg2 m hin) (fun c => by rw [V5_eq]; exact .rfl) (fun c => by rw [V6_eq]; exact .rfl)
    (reg3 m hin) (fun c => by rw [V7_eq]; exact .rfl) (fun c => by rw [V8_eq]; exact .rfl)

end Cert.KernelIdeal.Hand

end
-- ==== Proof.KI.RunCond.lean ====
import proofs.«413815_j28827820491521_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 4) → (pcfgs (F := F) p).Adm)
    (pdats : (p : Fin 4) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v10) = V9 m outs c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) a pdats ι (cellOf_inj a) EP defs₀ 𝒱₀ L lv m ρ main
    (segs m outs 𝒱₀ L lv E ι a pdats R0 R1 R2 R3)
    (fun c Q => by
      rewrite [main_chain c, Seg.run_eq_chain,
        show (segs m outs 𝒱₀ L lv E ι a pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := fun c s => s.mem ((c.tc : Thread nD τ).loc main_v10) = V9 m outs c main_v10 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v10) (Finset.mem_filter.mpr ⟨StableHlo.devRef_mem_tcRefs main_v10, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c)⟩
    · iexact HSI

end Cert.KernelIdeal.Hand

end
-- ==== Proof.KI.RunValue.lean ====
import proofs.«413815_j28827820491521_2_alg».proof.Proof.KI.Frame
import proofs.«413815_j28827820491521_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hin : HIn m)

set_option backward.isDefEq.respectTransparency.types false in

theorem run : θ_run defs (onTc (τ := τ) (main (F := F))) ⟨m, fun _ => 0, ρ⟩ (fun r => ∀ c : Dev nD,
      r.2.mem ((c.tc : Thread nD τ).loc main_v10) = U9 m hin c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := run_cond m (embL : Emb (UR sig nD τ) 𝕄) () 𝒱₀ L lv (fun _ _ => rfl) ρ (outs m hin) (adm m hin) (pdats m hin)
    0 (fun _ => BI.emp) (u₀ m hin) (hu₀ m hin) (fun _ c => R c) (hE0 ρ) hE4
    (reg0 m hin) (fun c => .rfl) (fun c => by rw [V2_eq]; exact .rfl)
    (reg1 m hin) (fun c => by rw [V3_eq]; exact .rfl) (fun c => by rw [V4_eq]; exact .rfl)
    (reg2 m hin) (fun c => by rw [V5_eq]; exact .rfl) (fun c => by rw [V6_eq]; exact .rfl)
    (reg3 m hin) (fun c => by rw [V7_eq]; exact .rfl) (fun c => by rw [V8_eq]; exact .rfl)
  refine (θ_run defs _ _).mono (fun r hr c => ?_) h
  rw [← V9_eq m hin c]; exact hr c

end Cert.KernelIdeal.Hand

end
-- ==== Proof.KI.Out.lean ====
import proofs.«413815_j28827820491521_2_alg».proof.Proof.KI.Hyp
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- A one-row slice of the whole table at row offset r, read at column e, is the table at (r, e). -/
private theorem row_read (c : Dev nD) (fh0 : HbBuf (F := F) c) (off : Fin 2 → Nat)
    (inb : ∀ a, off a + S1x32.size a ≤ S1000000x32.size a)
    (hs : ∀ a, (Rect.unit (s := S1000000x32) off S1x32.size inb).stride a = 1)
    (r : Nat) (hr : r < 1000000) (h0 : off 0 = r) (h1 : off 1 = 0) (e : Fin 32) :
    ReadAs.same.apply (View.read (Elt F) ((Memref.whole main_arg1).slice (Rect.unit (s := S1000000x32) off S1x32.size inb) hs).view fh0)
        (ValueIdx.ix2 (n0 := 1) (n1 := 32) 0 e)
      = (fh0 : S1000000x32.Idx → Elt F .f32) (ValueIdx.ix2 (n0 := 1000000) (n1 := 32) ⟨r, hr⟩ e) := by
  show View.read (Elt F) ((Memref.whole main_arg1).slice (Rect.unit (s := S1000000x32) off S1x32.size inb) hs).view fh0
        (ValueIdx.ix2 (n0 := 1) (n1 := 32) 0 e) = _
  rw [View.read_apply]
  simp only [cast_eq]
  show (fh0 : S1000000x32.Idx → Elt F .f32) _ = (fh0 : S1000000x32.Idx → Elt F .f32) _
  congr 1
  funext a
  apply Fin.ext
  match a with
  | ⟨0, _⟩ => show off 0 + 1 * 0 = r; omega
  | ⟨1, _⟩ => show off 1 + 1 * e.val = e.val; omega

/-- Under a last store into row m of the block, entry (m, e) is the store's payload at (0, e); -/
private theorem canon_row_hit {Val : EltTy → Type} [∀ e, Nonempty (Val e)] (m : Nat) (hm : m < 8)
    (inb : ∀ a, (![m, 0] : Fin 2 → Nat) a + S1x32.size a ≤ S8x32.size a)
    (w : (Rect.unit (s := S8x32) ![m, 0] S1x32.size inb).shape.Idx → Val .f32)
    (L : List (View.Piece Val S8x32 .f32)) (e : Fin 32) :
    View.canon ((⟨Rect.unit (s := S8x32) ![m, 0] S1x32.size inb, w⟩ : View.Piece Val S8x32 .f32) :: L)
        (ValueIdx.ix2 (n0 := 8) (n1 := 32) ⟨m, hm⟩ e)
      = w (ValueIdx.ix2 (n0 := 1) (n1 := 32) 0 e) := by
  have h := View.canon_cons_emb (Rect.unit (s := S8x32) ![m, 0] S1x32.size inb) w L (ValueIdx.ix2 (n0 := 1) (n1 := 32) 0 e)
  have hx : (Rect.unit (s := S8x32) ![m, 0] S1x32.size inb).emb (ValueIdx.ix2 (n0 := 1) (n1 := 32) 0 e)
      = ValueIdx.ix2 (n0 := 8) (n1 := 32) ⟨m, hm⟩ e := by
    funext a
    apply Fin.ext
    match a with
    | ⟨0, _⟩ => show m + 1 * 0 = m; omega
    | ⟨1, _⟩ => show 0 + 1 * e.val = e.val; omega
  rw [hx] at h
  exact h

/-- an entry of another row is untouched by it. -/
private theorem canon_row_skip {Val : EltTy → Type} [∀ e, Nonempty (Val e)] (m : Nat)
    (inb : ∀ a, (![m, 0] : Fin 2 → Nat) a + S1x32.size a ≤ S8x32.size a)
    (w : (Rect.unit (s := S8x32) ![m, 0] S1x32.size inb).shape.Idx → Val .f32)
    (L : List (View.Piece Val S8x32 .f32)) (k : Fin 8) (hk : k.val ≠ m) (e : Fin 32) :
    View.canon ((⟨Rect.unit (s := S8x32) ![m, 0] S1x32.size inb, w⟩ : View.Piece Val S8x32 .f32) :: L)
        (ValueIdx.ix2 (n0 := 8) (n1 := 32) k e)
      = View.canon L (ValueIdx.ix2 (n0 := 8) (n1 := 32) k e) := by
  refine View.canon_cons_of_not_mem _ L ?_
  intro hmem
  have h0 := (Rect.mem_set_unit (inb := inb)).mp hmem ⟨0, by decide⟩
  have hlo : m ≤ k.val := h0.1
  have hhi : k.val < m + 1 := h0.2
  omega

/-- A load through the whole-block rectangle reads index for index. -/
private theorem whole_idx (inb : ∀ a, (![0, 0] : Fin 2 → Nat) a + (![8, 32] : Fin 2 → Nat) a ≤ S8x32.size a) (k : Fin 8) (e : Fin 32) :
    (Rect.unit (s := S8x32) ![0, 0] ![8, 32] inb).toLoadRect.idx (ValueIdx.ix2 (n0 := 8) (n1 := 32) k e)
      = ValueIdx.ix2 (n0 := 8) (n1 := 32) k e := by
  funext a
  apply Fin.ext
  match a with
  | ⟨0, _⟩ => show 0 + 1 * k.val = k.val; omega
  | ⟨1, _⟩ => show 0 + 1 * e.val = e.val; omega

/-- Row j of the block a point leaves is the table row named by word 8 i + j of the index table: of the eight one-row pieces
    only the one at row j reaches entry (j, e), and its payload is that table row. -/
theorem out_apply (c : Dev nD) (i : grid0.Coords) (arg1 : Memref sig .tc .smem S53248 .i32) (harg1 : arg1.IsWhole)
    (arg3 : Memref sig .tc .vmem S8x32 .f32) (harg3 : arg3.IsWhole) (arg4 : Memref sig .tc .vmem S8x32 .f32) (harg4 : arg4.IsWhole)
    (x0 : Vec F S53248 .i32) (fh0 : HbBuf (F := F) c) (hw : Hyp i arg1 harg1 x0)
    (j : Fin 8) (e : Fin 32) (hi : 8 * (i 0).val + j.val < 53248)
    (hr : (x0 (ValueIdx.ix1 (n := 53248) ⟨8 * (i 0).val + j.val, hi⟩)).toNat < 1000000) :
    out c i arg1 harg1 arg3 harg3 arg4 harg4 x0 fh0 hw (ValueIdx.ix2 j e)
      = (fh0 : S1000000x32.Idx → Elt F .f32) (ValueIdx.ix2 (n0 := 1000000) (n1 := 32) ⟨(x0 (ValueIdx.ix1 (n := 53248) ⟨8 * (i 0).val + j.val, hi⟩)).toNat, hr⟩ e) := by
  unfold out
  show View.canon [(⟨Rect.unit ![0, 0] ![8, 32] inb_S8x32_S8x32_0_0, _⟩ : View.Piece (Elt F) S8x32 .f32)] (ValueIdx.ix2 j e) = _
  refine (congrFun (View.canon_unit_zero (S := S8x32) (by funext a; match a with | ⟨0, _⟩ => rfl | ⟨1, _⟩ => rfl) inb_S8x32_S8x32_0_0 _) _).trans ?_
  unfold kernelRun0.sl.v89
  rw [View.readCov_eq_canon']
  show View.canon _ ((Rect.unit (s := S8x32) ![0, 0] ![8, 32] inb_S8x32_S8x32_0_0).toLoadRect.idx (ValueIdx.ix2 (n0 := 8) (n1 := 32) j e)) = _
  rw [whole_idx]
  have hv : (i 0).val < 6656 := (i 0).isLt
  match j, hi, hr with
  | ⟨0, hj⟩, hi, hr =>
    repeat refine (canon_row_skip _ _ _ _ ⟨0, hj⟩ (by show (0 : Nat) ≠ _; omega) e).trans ?_
    refine (canon_row_hit 0 hj _ _ _ e).trans ?_
    unfold kernelRun0.sl.dma1 kernelRun0.sl.r
    exact row_read c fh0 _ _ _ _ hr (congrArg BitVec.toNat (word_at arg1 harg1 x0 _ _ (8 * (i 0).val + 0) hi (off_nowrap (i 0).val 0 hv (by omega)))) rfl e
  | ⟨1, hj⟩, hi, hr =>
    repeat refine (canon_row_skip _ _ _ _ ⟨1, hj⟩ (by show (1 : Nat) ≠ _; omega) e).trans ?_
    refine (canon_row_hit 1 hj _ _ _ e).trans ?_
    unfold kernelRun0.sl.dma2 kernelRun0.sl.r_1
    exact row_read c fh0 _ _ _ _ hr (congrArg BitVec.toNat (word_at arg1 harg1 x0 _ _ (8 * (i 0).val + 1) hi (off_nowrap (i 0).val 1 hv (by omega)))) rfl e
  | ⟨2, hj⟩, hi, hr =>
    repeat refine (canon_row_skip _ _ _ _ ⟨2, hj⟩ (by show (2 : Nat) ≠ _; omega) e).trans ?_
    refine (canon_row_hit 2 hj _ _ _ e).trans ?_
    unfold kernelRun0.sl.dma3 kernelRun0.sl.r_2
    exact row_read c fh0 _ _ _ _ hr (congrArg BitVec.toNat (word_at arg1 harg1 x0 _ _ (8 * (i 0).val + 2) hi (off_nowrap (i 0).val 2 hv (by omega)))) rfl e
  | ⟨3, hj⟩, hi, hr =>
    repeat refine (canon_row_skip _ _ _ _ ⟨3, hj⟩ (by show (3 : Nat) ≠ _; omega) e).trans ?_
    refine (canon_row_hit 3 hj _ _ _ e).trans ?_
    unfold kernelRun0.sl.dma4 kernelRun0.sl.r_3
    exact row_read c fh0 _ _ _ _ hr (congrArg BitVec.toNat (word_at arg1 harg1 x0 _ _ (8 * (i 0).val + 3) hi (off_nowrap (i 0).val 3 hv (by omega)))) rfl e
  | ⟨4, hj⟩, hi, hr =>
    repeat refine (canon_row_skip _ _ _ _ ⟨4, hj⟩ (by show (4 : Nat) ≠ _; omega) e).trans ?_
    refine (canon_row_hit 4 hj _ _ _ e).trans ?_
    unfold kernelRun0.sl.dma5 kernelRun0.sl.r_4
    exact row_read c fh0 _ _ _ _ hr (congrArg BitVec.toNat (word_at arg1 harg1 x0 _ _ (8 * (i 0).val + 4) hi (off_nowrap (i 0).val 4 hv (by omega)))) rfl e
  | ⟨5, hj⟩, hi, hr =>
    repeat refine (canon_row_skip _ _ _ _ ⟨5, hj⟩ (by show (5 : Nat) ≠ _; omega) e).trans ?_
    refine (canon_row_hit 5 hj _ _ _ e).trans ?_
    unfold kernelRun0.sl.dma6 kernelRun0.sl.r_5
    exact row_read c fh0 _ _ _ _ hr (congrArg BitVec.toNat (word_at arg1 harg1 x0 _ _ (8 * (i 0).val + 5) hi (off_nowrap (i 0).val 5 hv (by omega)))) rfl e
  | ⟨6, hj⟩, hi, hr =>
    repeat refine (canon_row_skip _ _ _ _ ⟨6, hj⟩ (by show (6 : Nat) ≠ _; omega) e).trans ?_
    refine (canon_row_hit 6 hj _ _ _ e).trans ?_
    unfold kernelRun0.sl.dma7 kernelRun0.sl.r_6
    exact row_read c fh0 _ _ _ _ hr (congrArg BitVec.toNat (word_at arg1 harg1 x0 _ _ (8 * (i 0).val + 6) hi (off_nowrap (i 0).val 6 hv (by omega)))) rfl e
  | ⟨7, hj⟩, hi, hr =>
    repeat refine (canon_row_skip _ _ _ _ ⟨7, hj⟩ (by show (7 : Nat) ≠ _; omega) e).trans ?_
    refine (canon_row_hit 7 hj _ _ _ e).trans ?_
    unfold kernelRun0.sl.dma8 kernelRun0.sl.r_7
    exact row_read c fh0 _ _ _ _ hr (congrArg BitVec.toNat (word_at arg1 harg1 x0 _ _ (8 * (i 0).val + 7) hi (off_nowrap (i 0).val 7 hv (by omega)))) rfl e

end Cert.KernelIdeal.Hand

end
-- ==== Proof.ConcatValue.lean ====
import proofs.«413815_j28827820491521_2_alg».proof.Proof.Gen.KernelIdeal
import proofs.«413815_j28827820491521_2_alg».proof.Proof.KernelTerm
import proofs.«413815_j28827820491521_2_alg».proof.Proof.Spec
import Idealize.ShloMosaic.Lib.ValueIdx
import Idealize.ShloMosaic.Lib.Pipeline.Value

noncomputable section

namespace Cert.KernelIdeal.KValue

open Idealize.ShloMosaic Cert.KernelIdeal Cert.KernelIdeal.Gen

variable {F : FTy → Type} [FloatOps F]

/-- The gathered array at an index whose row is r and whose column is e. -/
theorem gathered_at (tbl : IVec S53248 32) (tab : FVec F S1000000x32 .f32) (i : S53248x32.Idx) (r : Nat) (hr : r < 53248)
    (e : Fin 32) (h0 : (i 0).val = r) (h1 : (i 1).val = e.val) :
    KTerm.gathered tbl tab i = tab (ValueIdx.ix2 (Cert.Spec.rowOf (tbl (ValueIdx.ix1 (n := 53248) ⟨r, hr⟩))) e) := by
  subst h0
  have he : (⟨(i 1).val, (i 1).isLt⟩ : Fin 32) = e := Fin.ext h1
  subst he
  rfl

private theorem reshape_read {α : Type} (X : S212992x32.Idx → α) (h : S212992x32.ShapeCasts S4096x26x2x32)
    (y : S4096x26x2x32.Idx) (r : Fin 212992) (hr : r.val = ((y 0).val * 26 + (y 1).val) * 2 + (y 2).val) :
    shapeCast S4096x26x2x32 X h y = X (ValueIdx.ix2 r (⟨(y 3).val, (y 3).isLt⟩ : Fin 32)) := by
  refine shapeCast_apply X h y _ ?_
  rw [Shape.rowMajor_val_two, Shape.rowMajor_val_four]
  show r.val * 32 + (y 3).val = (((y 0).val * 26 + (y 1).val) * 2 + (y 2).val) * 32 + (y 3).val
  omega

private theorem flat_read (ids : IVec S4096x26x2 32) (h : S4096x26x2.ShapeCasts S212992)
    (b : Fin 4096) (s : Fin 26) (j : Fin 2) (k : S212992.Idx) (hk : (k 0).val = (b.val * 26 + s.val) * 2 + j.val) :
    shapeCast S212992 ids h k = ids (ValueIdx.ix3 b s j) := by
  refine shapeCast_apply ids h k _ ?_
  rw [Shape.rowMajor_val_one, Shape.rowMajor_val_three]
  show (b.val * 26 + s.val) * 2 + j.val = (k 0).val
  omega

private theorem slice_read {α : Type} (X : S212992.Idx → α) (off : Fin S212992.rank → Nat) (h : S212992.Slices off S53248)
    (q : S53248.Idx) (k : S212992.Idx) (hk : (k 0).val = off 0 + (q 0).val) :
    extractStridedSlice S53248 off X h q = X k := by
  refine extractStridedSlice_apply off X h q k fun a => ?_
  match a with
  | ⟨0, _⟩ => exact hk

private abbrev pieces {α : Type} (o0 o1 o2 o3 : S53248x32.Idx → α) : List ((s : Shape) × (s.Idx → α)) :=
  [⟨S53248x32, o0⟩, ⟨S53248x32, o1⟩, ⟨S53248x32, o2⟩, ⟨S53248x32, o3⟩]

private theorem stack_read {α : Type} (o0 o1 o2 o3 : S53248x32.Idx → α)
    (h : Shape.Concatenates ((pieces o0 o1 o2 o3).map (·.1)) S212992x32 0)
    (r : Fin 212992) (e : Fin 32) (k : Nat) (hk : k < 4) (x : S53248x32.Idx → α)
    (hx : (pieces o0 o1 o2 o3)[k]'hk = ⟨S53248x32, x⟩)
    (q : Fin 53248) (hq : k * 53248 + q.val = r.val) :
    concatenate S212992x32 0 (pieces o0 o1 o2 o3) h (ValueIdx.ix2 r e) = x (ValueIdx.ix2 q e) := by
  have hi : ∀ b : Fin S53248x32.rank, b.cast (rfl : S53248x32.rank = S212992x32.rank) ≠ (0 : Fin S212992x32.rank) →
      ((ValueIdx.ix2 q e : S53248x32.Idx) b).val = ((ValueIdx.ix2 r e : S212992x32.Idx) (b.cast rfl)).val := fun b hb => by
    match b with
    | ⟨0, _⟩ => exact absurd rfl hb
    | ⟨1, _⟩ => rfl
  interval_cases k
  · exact concatenate_apply_piece 0 _ h _ 0 hk S53248x32 x hx rfl 0 (by simp) _ hi (by show 0 + q.val = r.val; omega)
  · exact concatenate_apply_piece 0 _ h _ 1 hk S53248x32 x hx rfl 53248 (by simp) _ hi (by show 53248 + q.val = r.val; omega)
  · exact concatenate_apply_piece 0 _ h _ 2 hk S53248x32 x hx rfl 106496 (by simp) _ hi (by show 106496 + q.val = r.val; omega)
  · exact concatenate_apply_piece 0 _ h _ 3 hk S53248x32 x hx rfl 159744 (by simp) _ hi (by show 159744 + q.val = r.val; omega)

private theorem gathered_read (ids : IVec S4096x26x2 32) (tab : FVec F S1000000x32 .f32)
    (off : Fin S212992.rank → Nat) (h : S212992.Slices off S53248) (y : S4096x26x2x32.Idx) (q : Fin 53248)
    (hq : off 0 + q.val = ((y 0).val * 26 + (y 1).val) * 2 + (y 2).val) :
    KTerm.gathered (extractStridedSlice S53248 off (KTerm.flatIds ids) h) tab
        (ValueIdx.ix2 q (⟨(y 3).val, (y 3).isLt⟩ : Fin 32)) = Cert.Spec.rows ids tab y := by
  have h0 : (y 0).val < 4096 := (y 0).isLt
  have h1 : (y 1).val < 26 := (y 1).isLt
  have h2 : (y 2).val < 2 := (y 2).isLt
  have hr : ((y 0).val * 26 + (y 1).val) * 2 + (y 2).val < 212992 := by omega
  have hw : extractStridedSlice S53248 off (KTerm.flatIds ids) h (ValueIdx.ix1 q) = ids (Cert.Spec.idOf y) := by
    refine (slice_read (KTerm.flatIds ids) off h (ValueIdx.ix1 q) (ValueIdx.ix1 (⟨_, hr⟩ : Fin 212992)) ?_).trans ?_
    · show ((y 0).val * 26 + (y 1).val) * 2 + (y 2).val = off 0 + q.val
      omega
    · exact flat_read ids _ ⟨(y 0).val, h0⟩ ⟨(y 1).val, h1⟩ ⟨(y 2).val, h2⟩ _ rfl
  show tab (ValueIdx.ix2 (Cert.Spec.rowOf (extractStridedSlice S53248 off (KTerm.flatIds ids) h (ValueIdx.ix1 q)))
      (⟨(y 3).val, (y 3).isLt⟩ : Fin 32)) = _
  rw [hw]
  rfl

theorem assemble_gathered (ids : IVec S4096x26x2 32) (tab : FVec F S1000000x32 .f32) :
    KTerm.assemble (KTerm.gathered (KTerm.tbl0 ids) tab) (KTerm.gathered (KTerm.tbl1 ids) tab)
      (KTerm.gathered (KTerm.tbl2 ids) tab) (KTerm.gathered (KTerm.tbl3 ids) tab) = Cert.Spec.rows ids tab := by
  funext y
  have h0 : (y 0).val < 4096 := (y 0).isLt
  have h1 : (y 1).val < 26 := (y 1).isLt
  have h2 : (y 2).val < 2 := (y 2).isLt

  obtain ⟨R, hR⟩ : ∃ R : Nat, R = ((y 0).val * 26 + (y 1).val) * 2 + (y 2).val := ⟨_, rfl⟩
  have hr : R < 212992 := by omega
  refine (reshape_read _ _ y ⟨R, hr⟩ hR).trans ?_

  by_cases c1 : R < 53248
  · refine (stack_read _ _ _ _ _ ⟨R, hr⟩ _ 0 (by omega) _ rfl ⟨R, c1⟩ (by show 0 * 53248 + R = R; omega)).trans ?_
    exact gathered_read ids tab _ _ y _ (by show 0 + R = _; omega)
  by_cases c2 : R < 106496
  · refine (stack_read _ _ _ _ _ ⟨R, hr⟩ _ 1 (by omega) _ rfl ⟨R - 53248, by omega⟩ (by
      show 1 * 53248 + (R - 53248) = R; omega)).trans ?_
    exact gathered_read ids tab _ _ y _ (by show 53248 + (R - 53248) = _; omega)
  by_cases c3 : R < 159744
  · refine (stack_read _ _ _ _ _ ⟨R, hr⟩ _ 2 (by omega) _ rfl ⟨R - 106496, by omega⟩ (by
      show 2 * 53248 + (R - 106496) = R; omega)).trans ?_
    exact gathered_read ids tab _ _ y _ (by show 106496 + (R - 106496) = _; omega)
  · refine (stack_read _ _ _ _ _ ⟨R, hr⟩ _ 3 (by omega) _ rfl ⟨R - 159744, by omega⟩ (by
      show 3 * 53248 + (R - 159744) = R; omega)).trans ?_
    exact gathered_read ids tab _ _ y _ (by show 159744 + (R - 159744) = _; omega)

end Cert.KernelIdeal.KValue

end
-- ==== Proof.KI.Val0.lean ====
import proofs.«413815_j28827820491521_2_alg».proof.Proof.KI.Region0
import proofs.«413815_j28827820491521_2_alg».proof.Proof.KI.Out
import proofs.«413815_j28827820491521_2_alg».proof.Proof.ConcatValue
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

private theorem coord_val (a : (pcfg0 (F := F)).Adm) (t : Fin (cfg0 a).N) : (((cfg0 a).grid.coords t) 0).val = t.val := by
  have ht : t.val < 6656 := lt_of_lt_of_eq t.isLt N_0
  show t.val / (cfg0 a).grid.stride 0 % (cfg0 a).grid.bound 0 = t.val
  rw [show (cfg0 a).grid.stride 0 = 1 from rfl, show (cfg0 a).grid.bound 0 = 6656 from rfl, Nat.div_one, Nat.mod_eq_of_lt ht]

private theorem index_row (a : (pcfg0 (F := F)).Adm) (t : Fin (cfg0 a).N) : ((cfg0 a).win 0).index t (0 : Fin 2) = t.val := by
  have ht : t.val < 6656 := lt_of_lt_of_eq t.isLt N_0
  show (BitVec.ofNat 32 (((cfg0 a).grid.coords t) 0).val).toNat = t.val
  rw [coord_val, BitVec.toNat_ofNat]
  omega

private theorem index_col (a : (pcfg0 (F := F)).Adm) (t : Fin (cfg0 a).N) : ((cfg0 a).win 0).index t (1 : Fin 2) = 0 := rfl

private theorem flush_all (a : (pcfg0 (F := F)).Adm) (t : Fin (cfg0 a).N) : ((cfg0 a).win 0).flush t = true := by
  unfold Pipeline.Window.flush
  rw [show ((cfg0 a).win 0).isOut = true from rfl, Bool.true_and, Bool.or_eq_true, decide_eq_true_eq, decide_eq_true_eq]
  by_cases h : t.val + 1 = (cfg0 a).grid.N
  · exact Or.inl h
  · have ht : t.val < (cfg0 a).grid.N := t.isLt
    have h' : t.val + 1 < (cfg0 a).grid.N := by omega
    refine Or.inr ⟨h', fun e => ?_⟩
    have e0 := congrFun e (0 : Fin 2)
    rw [index_row, index_row] at e0
    have e1 : t.val + 1 = t.val := e0
    omega

private theorem mem_blk (a : (pcfg0 (F := F)).Adm) (t : Fin (cfg0 a).N) (i : S53248x32.Idx) :
    i ∈ (((cfg0 a).win 0).blk t).view.set ↔ ∀ d : Fin 2, ((cfg0 a).win 0).index t d * S8x32.size d ≤ (i d).val ∧ (i d).val < ((cfg0 a).win 0).index t d * S8x32.size d + S8x32.size d := by
  exact (Finset.ext_iff.mp (View.set_slice_whole main_v2 (((cfg0 a).win 0).rect t)) i).trans Rect.mem_set_unit

private theorem blocks_cover (a : (pcfg0 (F := F)).Adm) (i : S53248x32.Idx) :
    ∃ t : Fin (cfg0 a).N, ((cfg0 a).win 0).flush t = true ∧ i ∈ (((cfg0 a).win 0).blk t).view.set := by
  have hi0 : (i 0).val < 53248 := (i 0).isLt
  have hi1 : (i 1).val < 32 := (i 1).isLt
  have hN : (cfg0 a).N = 6656 := N_0
  have hq : (i 0).val / 8 < (cfg0 a).N := by rw [hN]; omega
  refine ⟨⟨(i 0).val / 8, hq⟩, flush_all a _, ?_⟩
  rw [mem_blk]
  have q0 : ((cfg0 a).win 0).index ⟨(i 0).val / 8, hq⟩ (0 : Fin 2) = (i 0).val / 8 := index_row a _
  have q1 : ((cfg0 a).win 0).index ⟨(i 0).val / 8, hq⟩ (1 : Fin 2) = 0 := index_col a _
  intro d
  match d with
  | ⟨0, _⟩ =>
    show ((cfg0 a).win 0).index ⟨(i 0).val / 8, hq⟩ (0 : Fin 2) * 8 ≤ (i 0).val ∧ (i 0).val < ((cfg0 a).win 0).index ⟨(i 0).val / 8, hq⟩ (0 : Fin 2) * 8 + 8
    omega
  | ⟨1, _⟩ =>
    show ((cfg0 a).win 0).index ⟨(i 0).val / 8, hq⟩ (1 : Fin 2) * 32 ≤ (i 1).val ∧ (i 1).val < ((cfg0 a).win 0).index ⟨(i 0).val / 8, hq⟩ (1 : Fin 2) * 32 + 32
    omega

section Block

variable (V : (c : Dev nD) → (b : Ref sig .tc) → Buf (Elt F) ((c : Thread nD τ).loc b))
variable (a : (pcfg0 (F := F)).Adm)
variable (hH : ∀ t : Fin (cfg0 a).N, Hyp0 ((cfg0 a).grid.coords t) (tb0 a))

private theorem outAt0_apply (c : Dev nD) (t : Fin (cfg0 a).N) (j : Fin 8) (e : Fin 32)
    (hi : 8 * (((cfg0 a).grid.coords t) 0).val + j.val < 53248) :
    outAt0 V a hH c t (ValueIdx.ix2 j e)
      = (V c main_arg1 : S1000000x32.Idx → Elt F .f32)
          (ValueIdx.ix2 (Cert.Spec.rowOf (tb0 a (ValueIdx.ix1 (n := 53248) ⟨8 * (((cfg0 a).grid.coords t) 0).val + j.val, hi⟩))) e) := by
  have hr := rows_lt _ _ (tb0 a) ((cfg0 a).grid.coords t) (hH t) j hi
  unfold outAt0
  refine (out_apply c ((cfg0 a).grid.coords t) (Memref.whole main_v1) (Memref.isWhole_whole _) (ms0 a t) (hs0 a t)
    (Memref.whole cc0_scratch0) (Memref.isWhole_whole _) (tb0 a) (V c main_arg1) (hH t) j e hi hr).trans ?_
  exact congrArg (fun r : Fin 1000000 => (V c main_arg1 : S1000000x32.Idx → Elt F .f32) (ValueIdx.ix2 r e))
    (Fin.ext (Cert.Spec.rowOf_val_of_lt _ hr).symm)

end Block

section Final

variable (V : (c : Dev nD) → (b : Ref sig .tc) → Buf (Elt F) ((c : Thread nD τ).loc b))
variable (a : (pcfg0 (F := F)).Adm)
variable (hH : ∀ t : Fin (cfg0 a).N, Hyp0 ((cfg0 a).grid.coords t) (tb0 a))

private theorem flushed_eq (c : Dev nD) (tab : FVec F S1000000x32 .f32) (htab : V c main_arg1 = tab) (t : Fin (cfg0 a).N) :
    (dat0 V a hH c).flushed 0 t = (((cfg0 a).win 0).blk t).view.read (Elt F) (KTerm.gathered (tb0 a) tab) := by
  subst htab
  funext y
  have hy0 : (y (0 : Fin 2)).val < 8 := (y (0 : Fin 2)).isLt
  have hy1 : (y (1 : Fin 2)).val < 32 := (y (1 : Fin 2)).isLt
  have hv : (((cfg0 a).grid.coords t) 0).val < 6656 := (((cfg0 a).grid.coords t) 0).isLt
  have hi : 8 * (((cfg0 a).grid.coords t) 0).val + (⟨(y (0 : Fin 2)).val, hy0⟩ : Fin 8).val < 53248 := by
    show 8 * (((cfg0 a).grid.coords t) 0).val + (y (0 : Fin 2)).val < 53248
    omega

  have hx : ((cfg0 a).win 0).xinj ((cfg0 a).grid.coords t) y
      = ValueIdx.ix2 (⟨(y (0 : Fin 2)).val, hy0⟩ : Fin 8) (⟨(y (1 : Fin 2)).val, hy1⟩ : Fin 32) := by
    funext d
    match d with
    | ⟨0, _⟩ => rfl
    | ⟨1, _⟩ => rfl

  have h0 : (((((cfg0 a).win 0).blk t).view.emb y) (0 : Fin 2)).val = 8 * (((cfg0 a).grid.coords t) 0).val + (y (0 : Fin 2)).val := by
    show ((cfg0 a).win 0).index t (0 : Fin 2) * 8 + 1 * (y (0 : Fin 2)).val = _
    rw [index_row, coord_val]
    omega
  have h1 : (((((cfg0 a).win 0).blk t).view.emb y) (1 : Fin 2)).val = (y (1 : Fin 2)).val := by
    show ((cfg0 a).win 0).index t (1 : Fin 2) * 32 + 1 * (y (1 : Fin 2)).val = _
    rw [index_col]
    omega
  show outAt0 V a hH c t (((cfg0 a).win 0).xinj ((cfg0 a).grid.coords t) y)
    = KTerm.gathered (tb0 a) (V c main_arg1) ((((cfg0 a).win 0).blk t).view.emb y)
  refine (congrArg (outAt0 V a hH c t) hx).trans ?_
  refine (outAt0_apply V a hH c t _ _ hi).trans ?_
  exact (KValue.gathered_at (tb0 a) (V c main_arg1) _ _ hi _ h0 h1).symm

end Final

theorem arrAt0_eq (V : (c : Dev nD) → (b : Ref sig .tc) → Buf (Elt F) ((c : Thread nD τ).loc b)) (a : (pcfg0 (F := F)).Adm)
    (hH : ∀ t : Fin (cfg0 a).N, Hyp0 ((cfg0 a).grid.coords t) (tb0 a)) (c : Dev nD)
    (tab : FVec F S1000000x32 .f32) (htab : V c main_arg1 = tab) :
    ((dat0 V a hH c).arrAt 0 (cfg0 a).N : S53248x32.Idx → Elt F .f32) = KTerm.gathered (tb0 a) tab := by
  exact (dat0 V a hH c).arrAt_eq_of_cover 0 (KTerm.gathered (tb0 a) tab) (fun t _ => flushed_eq V a hH c tab htab t) (blocks_cover a)

end Cert.KernelIdeal.Hand

end
-- ==== Proof.KI.Val1.lean ====
import proofs.«413815_j28827820491521_2_alg».proof.Proof.KI.Region1
import proofs.«413815_j28827820491521_2_alg».proof.Proof.KI.Out
import proofs.«413815_j28827820491521_2_alg».proof.Proof.ConcatValue
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

private theorem coord_val (a : (pcfg1 (F := F)).Adm) (t : Fin (cfg1 a).N) : (((cfg1 a).grid.coords t) 0).val = t.val := by
  have ht : t.val < 6656 := lt_of_lt_of_eq t.isLt N_1
  show t.val / (cfg1 a).grid.stride 0 % (cfg1 a).grid.bound 0 = t.val
  rw [show (cfg1 a).grid.stride 0 = 1 from rfl, show (cfg1 a).grid.bound 0 = 6656 from rfl, Nat.div_one, Nat.mod_eq_of_lt ht]

private theorem index_row (a : (pcfg1 (F := F)).Adm) (t : Fin (cfg1 a).N) : ((cfg1 a).win 0).index t (0 : Fin 2) = t.val := by
  have ht : t.val < 6656 := lt_of_lt_of_eq t.isLt N_1
  show (BitVec.ofNat 32 (((cfg1 a).grid.coords t) 0).val).toNat = t.val
  rw [coord_val, BitVec.toNat_ofNat]
  omega

private theorem index_col (a : (pcfg1 (F := F)).Adm) (t : Fin (cfg1 a).N) : ((cfg1 a).win 0).index t (1 : Fin 2) = 0 := rfl

private theorem flush_all (a : (pcfg1 (F := F)).Adm) (t : Fin (cfg1 a).N) : ((cfg1 a).win 0).flush t = true := by
  unfold Pipeline.Window.flush
  rw [show ((cfg1 a).win 0).isOut = true from rfl, Bool.true_and, Bool.or_eq_true, decide_eq_true_eq, decide_eq_true_eq]
  by_cases h : t.val + 1 = (cfg1 a).grid.N
  · exact Or.inl h
  · have ht : t.val < (cfg1 a).grid.N := t.isLt
    have h' : t.val + 1 < (cfg1 a).grid.N := by omega
    refine Or.inr ⟨h', fun e => ?_⟩
    have e0 := congrFun e (0 : Fin 2)
    rw [index_row, index_row] at e0
    have e1 : t.val + 1 = t.val := e0
    omega

private theorem mem_blk (a : (pcfg1 (F := F)).Adm) (t : Fin (cfg1 a).N) (i : S53248x32.Idx) :
    i ∈ (((cfg1 a).win 0).blk t).view.set ↔ ∀ d : Fin 2, ((cfg1 a).win 0).index t d * S8x32.size d ≤ (i d).val ∧ (i d).val < ((cfg1 a).win 0).index t d * S8x32.size d + S8x32.size d := by
  exact (Finset.ext_iff.mp (View.set_slice_whole main_v4 (((cfg1 a).win 0).rect t)) i).trans Rect.mem_set_unit

private theorem blocks_cover (a : (pcfg1 (F := F)).Adm) (i : S53248x32.Idx) :
    ∃ t : Fin (cfg1 a).N, ((cfg1 a).win 0).flush t = true ∧ i ∈ (((cfg1 a).win 0).blk t).view.set := by
  have hi0 : (i 0).val < 53248 := (i 0).isLt
  have hi1 : (i 1).val < 32 := (i 1).isLt
  have hN : (cfg1 a).N = 6656 := N_1
  have hq : (i 0).val / 8 < (cfg1 a).N := by rw [hN]; omega
  refine ⟨⟨(i 0).val / 8, hq⟩, flush_all a _, ?_⟩
  rw [mem_blk]
  have q0 : ((cfg1 a).win 0).index ⟨(i 0).val / 8, hq⟩ (0 : Fin 2) = (i 0).val / 8 := index_row a _
  have q1 : ((cfg1 a).win 0).index ⟨(i 0).val / 8, hq⟩ (1 : Fin 2) = 0 := index_col a _
  intro d
  match d with
  | ⟨0, _⟩ =>
    show ((cfg1 a).win 0).index ⟨(i 0).val / 8, hq⟩ (0 : Fin 2) * 8 ≤ (i 0).val ∧ (i 0).val < ((cfg1 a).win 0).index ⟨(i 0).val / 8, hq⟩ (0 : Fin 2) * 8 + 8
    omega
  | ⟨1, _⟩ =>
    show ((cfg1 a).win 0).index ⟨(i 0).val / 8, hq⟩ (1 : Fin 2) * 32 ≤ (i 1).val ∧ (i 1).val < ((cfg1 a).win 0).index ⟨(i 0).val / 8, hq⟩ (1 : Fin 2) * 32 + 32
    omega

section Block

variable (V : (c : Dev nD) → (b : Ref sig .tc) → Buf (Elt F) ((c : Thread nD τ).loc b))
variable (a : (pcfg1 (F := F)).Adm)
variable (hH : ∀ t : Fin (cfg1 a).N, Hyp1 ((cfg1 a).grid.coords t) (tb1 a))

private theorem outAt1_apply (c : Dev nD) (t : Fin (cfg1 a).N) (j : Fin 8) (e : Fin 32)
    (hi : 8 * (((cfg1 a).grid.coords t) 0).val + j.val < 53248) :
    outAt1 V a hH c t (ValueIdx.ix2 j e)
      = (V c main_arg1 : S1000000x32.Idx → Elt F .f32)
          (ValueIdx.ix2 (Cert.Spec.rowOf (tb1 a (ValueIdx.ix1 (n := 53248) ⟨8 * (((cfg1 a).grid.coords t) 0).val + j.val, hi⟩))) e) := by
  have hr := rows_lt _ _ (tb1 a) ((cfg1 a).grid.coords t) (hH t) j hi
  unfold outAt1
  refine (out_apply c ((cfg1 a).grid.coords t) (Memref.whole main_v3) (Memref.isWhole_whole _) (ms1 a t) (hs1 a t)
    (Memref.whole cc1_scratch0) (Memref.isWhole_whole _) (tb1 a) (V c main_arg1) (hH t) j e hi hr).trans ?_
  exact congrArg (fun r : Fin 1000000 => (V c main_arg1 : S1000000x32.Idx → Elt F .f32) (ValueIdx.ix2 r e))
    (Fin.ext (Cert.Spec.rowOf_val_of_lt _ hr).symm)

end Block

section Final

variable (V : (c : Dev nD) → (b : Ref sig .tc) → Buf (Elt F) ((c : Thread nD τ).loc b))
variable (a : (pcfg1 (F := F)).Adm)
variable (hH : ∀ t : Fin (cfg1 a).N, Hyp1 ((cfg1 a).grid.coords t) (tb1 a))

private theorem flushed_eq (c : Dev nD) (tab : FVec F S1000000x32 .f32) (htab : V c main_arg1 = tab) (t : Fin (cfg1 a).N) :
    (dat1 V a hH c).flushed 0 t = (((cfg1 a).win 0).blk t).view.read (Elt F) (KTerm.gathered (tb1 a) tab) := by
  subst htab
  funext y
  have hy0 : (y (0 : Fin 2)).val < 8 := (y (0 : Fin 2)).isLt
  have hy1 : (y (1 : Fin 2)).val < 32 := (y (1 : Fin 2)).isLt
  have hv : (((cfg1 a).grid.coords t) 0).val < 6656 := (((cfg1 a).grid.coords t) 0).isLt
  have hi : 8 * (((cfg1 a).grid.coords t) 0).val + (⟨(y (0 : Fin 2)).val, hy0⟩ : Fin 8).val < 53248 := by
    show 8 * (((cfg1 a).grid.coords t) 0).val + (y (0 : Fin 2)).val < 53248
    omega

  have hx : ((cfg1 a).win 0).xinj ((cfg1 a).grid.coords t) y
      = ValueIdx.ix2 (⟨(y (0 : Fin 2)).val, hy0⟩ : Fin 8) (⟨(y (1 : Fin 2)).val, hy1⟩ : Fin 32) := by
    funext d
    match d with
    | ⟨0, _⟩ => rfl
    | ⟨1, _⟩ => rfl

  have h0 : (((((cfg1 a).win 0).blk t).view.emb y) (0 : Fin 2)).val = 8 * (((cfg1 a).grid.coords t) 0).val + (y (0 : Fin 2)).val := by
    show ((cfg1 a).win 0).index t (0 : Fin 2) * 8 + 1 * (y (0 : Fin 2)).val = _
    rw [index_row, coord_val]
    omega
  have h1 : (((((cfg1 a).win 0).blk t).view.emb y) (1 : Fin 2)).val = (y (1 : Fin 2)).val := by
    show ((cfg1 a).win 0).index t (1 : Fin 2) * 32 + 1 * (y (1 : Fin 2)).val = _
    rw [index_col]
    omega
  show outAt1 V a hH c t (((cfg1 a).win 0).xinj ((cfg1 a).grid.coords t) y)
    = KTerm.gathered (tb1 a) (V c main_arg1) ((((cfg1 a).win 0).blk t).view.emb y)
  refine (congrArg (outAt1 V a hH c t) hx).trans ?_
  refine (outAt1_apply V a hH c t _ _ hi).trans ?_
  exact (KValue.gathered_at (tb1 a) (V c main_arg1) _ _ hi _ h0 h1).symm

end Final

theorem arrAt1_eq (V : (c : Dev nD) → (b : Ref sig .tc) → Buf (Elt F) ((c : Thread nD τ).loc b)) (a : (pcfg1 (F := F)).Adm)
    (hH : ∀ t : Fin (cfg1 a).N, Hyp1 ((cfg1 a).grid.coords t) (tb1 a)) (c : Dev nD)
    (tab : FVec F S1000000x32 .f32) (htab : V c main_arg1 = tab) :
    ((dat1 V a hH c).arrAt 0 (cfg1 a).N : S53248x32.Idx → Elt F .f32) = KTerm.gathered (tb1 a) tab := by
  exact (dat1 V a hH c).arrAt_eq_of_cover 0 (KTerm.gathered (tb1 a) tab) (fun t _ => flushed_eq V a hH c tab htab t) (blocks_cover a)

end Cert.KernelIdeal.Hand

end
-- ==== Proof.KI.Val2.lean ====
import proofs.«413815_j28827820491521_2_alg».proof.Proof.KI.Region2
import proofs.«413815_j28827820491521_2_alg».proof.Proof.KI.Out
import proofs.«413815_j28827820491521_2_alg».proof.Proof.ConcatValue
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

private theorem coord_val (a : (pcfg2 (F := F)).Adm) (t : Fin (cfg2 a).N) : (((cfg2 a).grid.coords t) 0).val = t.val := by
  have ht : t.val < 6656 := lt_of_lt_of_eq t.isLt N_2
  show t.val / (cfg2 a).grid.stride 0 % (cfg2 a).grid.bound 0 = t.val
  rw [show (cfg2 a).grid.stride 0 = 1 from rfl, show (cfg2 a).grid.bound 0 = 6656 from rfl, Nat.div_one, Nat.mod_eq_of_lt ht]

private theorem index_row (a : (pcfg2 (F := F)).Adm) (t : Fin (cfg2 a).N) : ((cfg2 a).win 0).index t (0 : Fin 2) = t.val := by
  have ht : t.val < 6656 := lt_of_lt_of_eq t.isLt N_2
  show (BitVec.ofNat 32 (((cfg2 a).grid.coords t) 0).val).toNat = t.val
  rw [coord_val, BitVec.toNat_ofNat]
  omega

private theorem index_col (a : (pcfg2 (F := F)).Adm) (t : Fin (cfg2 a).N) : ((cfg2 a).win 0).index t (1 : Fin 2) = 0 := rfl

private theorem flush_all (a : (pcfg2 (F := F)).Adm) (t : Fin (cfg2 a).N) : ((cfg2 a).win 0).flush t = true := by
  unfold Pipeline.Window.flush
  rw [show ((cfg2 a).win 0).isOut = true from rfl, Bool.true_and, Bool.or_eq_true, decide_eq_true_eq, decide_eq_true_eq]
  by_cases h : t.val + 1 = (cfg2 a).grid.N
  · exact Or.inl h
  · have ht : t.val < (cfg2 a).grid.N := t.isLt
    have h' : t.val + 1 < (cfg2 a).grid.N := by omega
    refine Or.inr ⟨h', fun e => ?_⟩
    have e0 := congrFun e (0 : Fin 2)
    rw [index_row, index_row] at e0
    have e1 : t.val + 1 = t.val := e0
    omega

private theorem mem_blk (a : (pcfg2 (F := F)).Adm) (t : Fin (cfg2 a).N) (i : S53248x32.Idx) :
    i ∈ (((cfg2 a).win 0).blk t).view.set ↔ ∀ d : Fin 2, ((cfg2 a).win 0).index t d * S8x32.size d ≤ (i d).val ∧ (i d).val < ((cfg2 a).win 0).index t d * S8x32.size d + S8x32.size d := by
  exact (Finset.ext_iff.mp (View.set_slice_whole main_v6 (((cfg2 a).win 0).rect t)) i).trans Rect.mem_set_unit

private theorem blocks_cover (a : (pcfg2 (F := F)).Adm) (i : S53248x32.Idx) :
    ∃ t : Fin (cfg2 a).N, ((cfg2 a).win 0).flush t = true ∧ i ∈ (((cfg2 a).win 0).blk t).view.set := by
  have hi0 : (i 0).val < 53248 := (i 0).isLt
  have hi1 : (i 1).val < 32 := (i 1).isLt
  have hN : (cfg2 a).N = 6656 := N_2
  have hq : (i 0).val / 8 < (cfg2 a).N := by rw [hN]; omega
  refine ⟨⟨(i 0).val / 8, hq⟩, flush_all a _, ?_⟩
  rw [mem_blk]
  have q0 : ((cfg2 a).win 0).index ⟨(i 0).val / 8, hq⟩ (0 : Fin 2) = (i 0).val / 8 := index_row a _
  have q1 : ((cfg2 a).win 0).index ⟨(i 0).val / 8, hq⟩ (1 : Fin 2) = 0 := index_col a _
  intro d
  match d with
  | ⟨0, _⟩ =>
    show ((cfg2 a).win 0).index ⟨(i 0).val / 8, hq⟩ (0 : Fin 2) * 8 ≤ (i 0).val ∧ (i 0).val < ((cfg2 a).win 0).index ⟨(i 0).val / 8, hq⟩ (0 : Fin 2) * 8 + 8
    omega
  | ⟨1, _⟩ =>
    show ((cfg2 a).win 0).index ⟨(i 0).val / 8, hq⟩ (1 : Fin 2) * 32 ≤ (i 1).val ∧ (i 1).val < ((cfg2 a).win 0).index ⟨(i 0).val / 8, hq⟩ (1 : Fin 2) * 32 + 32
    omega

section Block

variable (V : (c : Dev nD) → (b : Ref sig .tc) → Buf (Elt F) ((c : Thread nD τ).loc b))
variable (a : (pcfg2 (F := F)).Adm)
variable (hH : ∀ t : Fin (cfg2 a).N, Hyp2 ((cfg2 a).grid.coords t) (tb2 a))

private theorem outAt2_apply (c : Dev nD) (t : Fin (cfg2 a).N) (j : Fin 8) (e : Fin 32)
    (hi : 8 * (((cfg2 a).grid.coords t) 0).val + j.val < 53248) :
    outAt2 V a hH c t (ValueIdx.ix2 j e)
      = (V c main_arg1 : S1000000x32.Idx → Elt F .f32)
          (ValueIdx.ix2 (Cert.Spec.rowOf (tb2 a (ValueIdx.ix1 (n := 53248) ⟨8 * (((cfg2 a).grid.coords t) 0).val + j.val, hi⟩))) e) := by
  have hr := rows_lt _ _ (tb2 a) ((cfg2 a).grid.coords t) (hH t) j hi
  unfold outAt2
  refine (out_apply c ((cfg2 a).grid.coords t) (Memref.whole main_v5) (Memref.isWhole_whole _) (ms2 a t) (hs2 a t)
    (Memref.whole cc2_scratch0) (Memref.isWhole_whole _) (tb2 a) (V c main_arg1) (hH t) j e hi hr).trans ?_
  exact congrArg (fun r : Fin 1000000 => (V c main_arg1 : S1000000x32.Idx → Elt F .f32) (ValueIdx.ix2 r e))
    (Fin.ext (Cert.Spec.rowOf_val_of_lt _ hr).symm)

end Block

section Final

variable (V : (c : Dev nD) → (b : Ref sig .tc) → Buf (Elt F) ((c : Thread nD τ).loc b))
variable (a : (pcfg2 (F := F)).Adm)
variable (hH : ∀ t : Fin (cfg2 a).N, Hyp2 ((cfg2 a).grid.coords t) (tb2 a))

private theorem flushed_eq (c : Dev nD) (tab : FVec F S1000000x32 .f32) (htab : V c main_arg1 = tab) (t : Fin (cfg2 a).N) :
    (dat2 V a hH c).flushed 0 t = (((cfg2 a).win 0).blk t).view.read (Elt F) (KTerm.gathered (tb2 a) tab) := by
  subst htab
  funext y
  have hy0 : (y (0 : Fin 2)).val < 8 := (y (0 : Fin 2)).isLt
  have hy1 : (y (1 : Fin 2)).val < 32 := (y (1 : Fin 2)).isLt
  have hv : (((cfg2 a).grid.coords t) 0).val < 6656 := (((cfg2 a).grid.coords t) 0).isLt
  have hi : 8 * (((cfg2 a).grid.coords t) 0).val + (⟨(y (0 : Fin 2)).val, hy0⟩ : Fin 8).val < 53248 := by
    show 8 * (((cfg2 a).grid.coords t) 0).val + (y (0 : Fin 2)).val < 53248
    omega

  have hx : ((cfg2 a).win 0).xinj ((cfg2 a).grid.coords t) y
      = ValueIdx.ix2 (⟨(y (0 : Fin 2)).val, hy0⟩ : Fin 8) (⟨(y (1 : Fin 2)).val, hy1⟩ : Fin 32) := by
    funext d
    match d with
    | ⟨0, _⟩ => rfl
    | ⟨1, _⟩ => rfl

  have h0 : (((((cfg2 a).win 0).blk t).view.emb y) (0 : Fin 2)).val = 8 * (((cfg2 a).grid.coords t) 0).val + (y (0 : Fin 2)).val := by
    show ((cfg2 a).win 0).index t (0 : Fin 2) * 8 + 1 * (y (0 : Fin 2)).val = _
    rw [index_row, coord_val]
    omega
  have h1 : (((((cfg2 a).win 0).blk t).view.emb y) (1 : Fin 2)).val = (y (1 : Fin 2)).val := by
    show ((cfg2 a).win 0).index t (1 : Fin 2) * 32 + 1 * (y (1 : Fin 2)).val = _
    rw [index_col]
    omega
  show outAt2 V a hH c t (((cfg2 a).win 0).xinj ((cfg2 a).grid.coords t) y)
    = KTerm.gathered (tb2 a) (V c main_arg1) ((((cfg2 a).win 0).blk t).view.emb y)
  refine (congrArg (outAt2 V a hH c t) hx).trans ?_
  refine (outAt2_apply V a hH c t _ _ hi).trans ?_
  exact (KValue.gathered_at (tb2 a) (V c main_arg1) _ _ hi _ h0 h1).symm

end Final

theorem arrAt2_eq (V : (c : Dev nD) → (b : Ref sig .tc) → Buf (Elt F) ((c : Thread nD τ).loc b)) (a : (pcfg2 (F := F)).Adm)
    (hH : ∀ t : Fin (cfg2 a).N, Hyp2 ((cfg2 a).grid.coords t) (tb2 a)) (c : Dev nD)
    (tab : FVec F S1000000x32 .f32) (htab : V c main_arg1 = tab) :
    ((dat2 V a hH c).arrAt 0 (cfg2 a).N : S53248x32.Idx → Elt F .f32) = KTerm.gathered (tb2 a) tab := by
  exact (dat2 V a hH c).arrAt_eq_of_cover 0 (KTerm.gathered (tb2 a) tab) (fun t _ => flushed_eq V a hH c tab htab t) (blocks_cover a)

end Cert.KernelIdeal.Hand

end
-- ==== Proof.KI.Val3.lean ====
import proofs.«413815_j28827820491521_2_alg».proof.Proof.KI.Region3
import proofs.«413815_j28827820491521_2_alg».proof.Proof.KI.Out
import proofs.«413815_j28827820491521_2_alg».proof.Proof.ConcatValue
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

private theorem coord_val (a : (pcfg3 (F := F)).Adm) (t : Fin (cfg3 a).N) : (((cfg3 a).grid.coords t) 0).val = t.val := by
  have ht : t.val < 6656 := lt_of_lt_of_eq t.isLt N_3
  show t.val / (cfg3 a).grid.stride 0 % (cfg3 a).grid.bound 0 = t.val
  rw [show (cfg3 a).grid.stride 0 = 1 from rfl, show (cfg3 a).grid.bound 0 = 6656 from rfl, Nat.div_one, Nat.mod_eq_of_lt ht]

private theorem index_row (a : (pcfg3 (F := F)).Adm) (t : Fin (cfg3 a).N) : ((cfg3 a).win 0).index t (0 : Fin 2) = t.val := by
  have ht : t.val < 6656 := lt_of_lt_of_eq t.isLt N_3
  show (BitVec.ofNat 32 (((cfg3 a).grid.coords t) 0).val).toNat = t.val
  rw [coord_val, BitVec.toNat_ofNat]
  omega

private theorem index_col (a : (pcfg3 (F := F)).Adm) (t : Fin (cfg3 a).N) : ((cfg3 a).win 0).index t (1 : Fin 2) = 0 := rfl

private theorem flush_all (a : (pcfg3 (F := F)).Adm) (t : Fin (cfg3 a).N) : ((cfg3 a).win 0).flush t = true := by
  unfold Pipeline.Window.flush
  rw [show ((cfg3 a).win 0).isOut = true from rfl, Bool.true_and, Bool.or_eq_true, decide_eq_true_eq, decide_eq_true_eq]
  by_cases h : t.val + 1 = (cfg3 a).grid.N
  · exact Or.inl h
  · have ht : t.val < (cfg3 a).grid.N := t.isLt
    have h' : t.val + 1 < (cfg3 a).grid.N := by omega
    refine Or.inr ⟨h', fun e => ?_⟩
    have e0 := congrFun e (0 : Fin 2)
    rw [index_row, index_row] at e0
    have e1 : t.val + 1 = t.val := e0
    omega

private theorem mem_blk (a : (pcfg3 (F := F)).Adm) (t : Fin (cfg3 a).N) (i : S53248x32.Idx) :
    i ∈ (((cfg3 a).win 0).blk t).view.set ↔ ∀ d : Fin 2, ((cfg3 a).win 0).index t d * S8x32.size d ≤ (i d).val ∧ (i d).val < ((cfg3 a).win 0).index t d * S8x32.size d + S8x32.size d := by
  exact (Finset.ext_iff.mp (View.set_slice_whole main_v8 (((cfg3 a).win 0).rect t)) i).trans Rect.mem_set_unit

private theorem blocks_cover (a : (pcfg3 (F := F)).Adm) (i : S53248x32.Idx) :
    ∃ t : Fin (cfg3 a).N, ((cfg3 a).win 0).flush t = true ∧ i ∈ (((cfg3 a).win 0).blk t).view.set := by
  have hi0 : (i 0).val < 53248 := (i 0).isLt
  have hi1 : (i 1).val < 32 := (i 1).isLt
  have hN : (cfg3 a).N = 6656 := N_3
  have hq : (i 0).val / 8 < (cfg3 a).N := by rw [hN]; omega
  refine ⟨⟨(i 0).val / 8, hq⟩, flush_all a _, ?_⟩
  rw [mem_blk]
  have q0 : ((cfg3 a).win 0).index ⟨(i 0).val / 8, hq⟩ (0 : Fin 2) = (i 0).val / 8 := index_row a _
  have q1 : ((cfg3 a).win 0).index ⟨(i 0).val / 8, hq⟩ (1 : Fin 2) = 0 := index_col a _
  intro d
  match d with
  | ⟨0, _⟩ =>
    show ((cfg3 a).win 0).index ⟨(i 0).val / 8, hq⟩ (0 : Fin 2) * 8 ≤ (i 0).val ∧ (i 0).val < ((cfg3 a).win 0).index ⟨(i 0).val / 8, hq⟩ (0 : Fin 2) * 8 + 8
    omega
  | ⟨1, _⟩ =>
    show ((cfg3 a).win 0).index ⟨(i 0).val / 8, hq⟩ (1 : Fin 2) * 32 ≤ (i 1).val ∧ (i 1).val < ((cfg3 a).win 0).index ⟨(i 0).val / 8, hq⟩ (1 : Fin 2) * 32 + 32
    omega

section Block

variable (V : (c : Dev nD) → (b : Ref sig .tc) → Buf (Elt F) ((c : Thread nD τ).loc b))
variable (a : (pcfg3 (F := F)).Adm)
variable (hH : ∀ t : Fin (cfg3 a).N, Hyp3 ((cfg3 a).grid.coords t) (tb3 a))

private theorem outAt3_apply (c : Dev nD) (t : Fin (cfg3 a).N) (j : Fin 8) (e : Fin 32)
    (hi : 8 * (((cfg3 a).grid.coords t) 0).val + j.val < 53248) :
    outAt3 V a hH c t (ValueIdx.ix2 j e)
      = (V c main_arg1 : S1000000x32.Idx → Elt F .f32)
          (ValueIdx.ix2 (Cert.Spec.rowOf (tb3 a (ValueIdx.ix1 (n := 53248) ⟨8 * (((cfg3 a).grid.coords t) 0).val + j.val, hi⟩))) e) := by
  have hr := rows_lt _ _ (tb3 a) ((cfg3 a).grid.coords t) (hH t) j hi
  unfold outAt3
  refine (out_apply c ((cfg3 a).grid.coords t) (Memref.whole main_v7) (Memref.isWhole_whole _) (ms3 a t) (hs3 a t)
    (Memref.whole cc3_scratch0) (Memref.isWhole_whole _) (tb3 a) (V c main_arg1) (hH t) j e hi hr).trans ?_
  exact congrArg (fun r : Fin 1000000 => (V c main_arg1 : S1000000x32.Idx → Elt F .f32) (ValueIdx.ix2 r e))
    (Fin.ext (Cert.Spec.rowOf_val_of_lt _ hr).symm)

end Block

section Final

variable (V : (c : Dev nD) → (b : Ref sig .tc) → Buf (Elt F) ((c : Thread nD τ).loc b))
variable (a : (pcfg3 (F := F)).Adm)
variable (hH : ∀ t : Fin (cfg3 a).N, Hyp3 ((cfg3 a).grid.coords t) (tb3 a))

private theorem flushed_eq (c : Dev nD) (tab : FVec F S1000000x32 .f32) (htab : V c main_arg1 = tab) (t : Fin (cfg3 a).N) :
    (dat3 V a hH c).flushed 0 t = (((cfg3 a).win 0).blk t).view.read (Elt F) (KTerm.gathered (tb3 a) tab) := by
  subst htab
  funext y
  have hy0 : (y (0 : Fin 2)).val < 8 := (y (0 : Fin 2)).isLt
  have hy1 : (y (1 : Fin 2)).val < 32 := (y (1 : Fin 2)).isLt
  have hv : (((cfg3 a).grid.coords t) 0).val < 6656 := (((cfg3 a).grid.coords t) 0).isLt
  have hi : 8 * (((cfg3 a).grid.coords t) 0).val + (⟨(y (0 : Fin 2)).val, hy0⟩ : Fin 8).val < 53248 := by
    show 8 * (((cfg3 a).grid.coords t) 0).val + (y (0 : Fin 2)).val < 53248
    omega

  have hx : ((cfg3 a).win 0).xinj ((cfg3 a).grid.coords t) y
      = ValueIdx.ix2 (⟨(y (0 : Fin 2)).val, hy0⟩ : Fin 8) (⟨(y (1 : Fin 2)).val, hy1⟩ : Fin 32) := by
    funext d
    match d with
    | ⟨0, _⟩ => rfl
    | ⟨1, _⟩ => rfl

  have h0 : (((((cfg3 a).win 0).blk t).view.emb y) (0 : Fin 2)).val = 8 * (((cfg3 a).grid.coords t) 0).val + (y (0 : Fin 2)).val := by
    show ((cfg3 a).win 0).index t (0 : Fin 2) * 8 + 1 * (y (0 : Fin 2)).val = _
    rw [index_row, coord_val]
    omega
  have h1 : (((((cfg3 a).win 0).blk t).view.emb y) (1 : Fin 2)).val = (y (1 : Fin 2)).val := by
    show ((cfg3 a).win 0).index t (1 : Fin 2) * 32 + 1 * (y (1 : Fin 2)).val = _
    rw [index_col]
    omega
  show outAt3 V a hH c t (((cfg3 a).win 0).xinj ((cfg3 a).grid.coords t) y)
    = KTerm.gathered (tb3 a) (V c main_arg1) ((((cfg3 a).win 0).blk t).view.emb y)
  refine (congrArg (outAt3 V a hH c t) hx).trans ?_
  refine (outAt3_apply V a hH c t _ _ hi).trans ?_
  exact (KValue.gathered_at (tb3 a) (V c main_arg1) _ _ hi _ h0 h1).symm

end Final

theorem arrAt3_eq (V : (c : Dev nD) → (b : Ref sig .tc) → Buf (Elt F) ((c : Thread nD τ).loc b)) (a : (pcfg3 (F := F)).Adm)
    (hH : ∀ t : Fin (cfg3 a).N, Hyp3 ((cfg3 a).grid.coords t) (tb3 a)) (c : Dev nD)
    (tab : FVec F S1000000x32 .f32) (htab : V c main_arg1 = tab) :
    ((dat3 V a hH c).arrAt 0 (cfg3 a).N : S53248x32.Idx → Elt F .f32) = KTerm.gathered (tb3 a) tab := by
  exact (dat3 V a hH c).arrAt_eq_of_cover 0 (KTerm.gathered (tb3 a) tab) (fun t _ => flushed_eq V a hH c tab htab t) (blocks_cover a)

end Cert.KernelIdeal.Hand

end
-- ==== Proof.KI.Value.lean ====
import proofs.«413815_j28827820491521_2_alg».proof.Proof.KI.Stages
import proofs.«413815_j28827820491521_2_alg».proof.Proof.KI.Val0
import proofs.«413815_j28827820491521_2_alg».proof.Proof.KI.Val1
import proofs.«413815_j28827820491521_2_alg».proof.Proof.KI.Val2
import proofs.«413815_j28827820491521_2_alg».proof.Proof.KI.Val3
import proofs.«413815_j28827820491521_2_alg».proof.Proof.ConcatValue

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

variable (m : (ℓ : Loc nD τ sig) → Buf (Elt F) ℓ) (hin : HIn m)

theorem U3_of (c : Dev nD) (r : Ref sig .tc) (h : r ∉ hostOps1_W) : U3 m hin c r = U2 m hin c r :=
  StableHlo.after_of_writes_sub hostOps1 _ hostOps1_writes h
theorem U5_of (c : Dev nD) (r : Ref sig .tc) (h : r ∉ hostOps2_W) : U5 m hin c r = U4 m hin c r :=
  StableHlo.after_of_writes_sub hostOps2 _ hostOps2_writes h
theorem U7_of (c : Dev nD) (r : Ref sig .tc) (h : r ∉ hostOps3_W) : U7 m hin c r = U6 m hin c r :=
  StableHlo.after_of_writes_sub hostOps3 _ hostOps3_writes h

theorem U1_tab (c : Dev nD) : U1 m c main_arg1 = m ((c : Thread nD τ).loc main_arg1) := V1_of m c main_arg1 (by decide)
theorem U3_tab (c : Dev nD) : U3 m hin c main_arg1 = m ((c : Thread nD τ).loc main_arg1) :=
  (U3_of m hin c main_arg1 (by decide)).trans ((U2_of m hin c main_arg1 (by decide)).trans (U1_tab m c))
theorem U5_tab (c : Dev nD) : U5 m hin c main_arg1 = m ((c : Thread nD τ).loc main_arg1) :=
  (U5_of m hin c main_arg1 (by decide)).trans ((U4_of m hin c main_arg1 (by decide)).trans (U3_tab m hin c))
theorem U7_tab (c : Dev nD) : U7 m hin c main_arg1 = m ((c : Thread nD τ).loc main_arg1) :=
  (U7_of m hin c main_arg1 (by decide)).trans ((U6_of m hin c main_arg1 (by decide)).trans (U5_tab m hin c))

theorem U8_v2 (c : Dev nD) : U8 m hin c main_v2 = o2 m hin c :=
  (U8_of m hin c main_v2 (by decide)).trans <| (U7_of m hin c main_v2 (by decide)).trans <| (U6_of m hin c main_v2 (by decide)).trans <|
    (U5_of m hin c main_v2 (by decide)).trans <| (U4_of m hin c main_v2 (by decide)).trans <| (U3_of m hin c main_v2 (by decide)).trans (U2_self m hin c)
theorem U8_v4 (c : Dev nD) : U8 m hin c main_v4 = o4 m hin c :=
  (U8_of m hin c main_v4 (by decide)).trans <| (U7_of m hin c main_v4 (by decide)).trans <| (U6_of m hin c main_v4 (by decide)).trans <|
    (U5_of m hin c main_v4 (by decide)).trans (U4_self m hin c)
theorem U8_v6 (c : Dev nD) : U8 m hin c main_v6 = o6 m hin c :=
  (U8_of m hin c main_v6 (by decide)).trans <| (U7_of m hin c main_v6 (by decide)).trans (U6_self m hin c)
theorem U8_v8 (c : Dev nD) : U8 m hin c main_v8 = o8 m hin c := U8_self m hin c

theorem o2_eq : (o2 m hin c0 : S53248x32.Idx → Elt F .f32)
    = KTerm.gathered (KTerm.tbl0 (m ((c0 : Thread nD τ).loc main_arg0))) (m ((c0 : Thread nD τ).loc main_arg1)) := by
  rw [← tb0_eq m hin]; exact arrAt0_eq _ _ _ c0 _ (U1_tab m c0)
theorem o4_eq : (o4 m hin c0 : S53248x32.Idx → Elt F .f32)
    = KTerm.gathered (KTerm.tbl1 (m ((c0 : Thread nD τ).loc main_arg0))) (m ((c0 : Thread nD τ).loc main_arg1)) := by
  rw [← tb1_eq m hin]; exact arrAt1_eq _ _ _ c0 _ (U3_tab m hin c0)
theorem o6_eq : (o6 m hin c0 : S53248x32.Idx → Elt F .f32)
    = KTerm.gathered (KTerm.tbl2 (m ((c0 : Thread nD τ).loc main_arg0))) (m ((c0 : Thread nD τ).loc main_arg1)) := by
  rw [← tb2_eq m hin]; exact arrAt2_eq _ _ _ c0 _ (U5_tab m hin c0)
theorem o8_eq : (o8 m hin c0 : S53248x32.Idx → Elt F .f32)
    = KTerm.gathered (KTerm.tbl3 (m ((c0 : Thread nD τ).loc main_arg0))) (m ((c0 : Thread nD τ).loc main_arg1)) := by
  rw [← tb3_eq m hin]; exact arrAt3_eq _ _ _ c0 _ (U7_tab m hin c0)

theorem U9_result (c : Dev nD) : (U9 m hin c main_v10 : S4096x26x2x32.Idx → Elt F .f32)
    = KTerm.assemble (U8 m hin c main_v2) (U8 m hin c main_v4) (U8 m hin c main_v6) (U8 m hin c main_v8) := by
  show StableHlo.after hostOps4 (U8 m hin c) (Proc.devRef .tc main_v10) = _
  after_results
  rfl

theorem result_eq (c : Dev nD) : (U9 m hin c main_v10 : S4096x26x2x32.Idx → Elt F .f32)
    = Cert.Spec.rows (m ((c : Thread nD τ).loc main_arg0)) (m ((c : Thread nD τ).loc main_arg1)) := by
  obtain rfl := eq_c0 c
  rw [U9_result, U8_v2, U8_v4, U8_v6, U8_v8, o2_eq, o4_eq, o6_eq, o8_eq]
  exact KValue.assemble_gathered _ _

end Cert.KernelIdeal.Hand

end
-- ==== Proof.RefTerm.lean ====
import proofs.«413815_j28827820491521_2_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Cert.ReferenceIdeal.Facts]

def shifted (ids : IVec S4096x26x2 32) : IVec S4096x26x2 32 :=
  let c : IVec S_ 32 := constantI S_ 32 0#32
  let v0 : IVec S4096x26x2 32 := broadcastInDim S4096x26x2 ![] bcast_S_S4096x26x2 c
  let v1 : IVec S4096x26x2 1 := cmpi .slt ids v0
  let c_0 : IVec S_ 32 := constantI S_ 32 1000000#32
  let v2 : IVec S4096x26x2 32 := broadcastInDim S4096x26x2 ![] bcast_S_S4096x26x2 c_0
  let v3 : IVec S4096x26x2 32 := addi ids v2
  select v1 v3 ids

def startIdx (ids : IVec S4096x26x2 32) : IVec S4096x26x2x1 32 :=
  broadcastInDim S4096x26x2x1 ![0, 1, 2] bcast_S4096x26x2_S4096x26x2x1_0_1_2 (shifted ids)

def inBounds (ids : IVec S4096x26x2 32) : IVec S4096x26x2 1 :=
  let v5 := startIdx ids
  let c_1 : IVec S1 32 := constantI S1 32 999999#32
  let c_2 : IVec S_ 32 := constantI S_ 32 0#32
  let v6 : IVec S4096x26x2x1 32 := broadcastInDim S4096x26x2x1 ![] bcast_S_S4096x26x2x1 c_2
  let v7 : IVec S4096x26x2x1 1 := cmpi .sge v5 v6
  let v8 : IVec S1x1x1x1 32 := broadcastInDim S1x1x1x1 ![3] bcast_S1_S1x1x1x1_3 c_1
  let v9 : IVec S4096x26x2x1 32 := broadcastInDim S4096x26x2x1 ![0, 1, 2, 3] bcast_S1x1x1x1_S4096x26x2x1_0_1_2_3 v8
  let v10 : IVec S4096x26x2x1 1 := cmpi .sle v5 v9
  let v11 : IVec S4096x26x2x1 1 := andi v7 v10
  let c_3 : IVec S_ 1 := constantI S_ 1 1#1
  Host.reduce IntOp.andi v11 c_3 reducesTo_S4096x26x2x1_S4096x26x2_d3 h_S_

def refTerm (tab : FVec F S1000000x32 .f32) (ids : IVec S4096x26x2 32) : FVec F S4096x26x2x32 .f32 :=
  let v13 : FVec F S4096x26x2x32 .f32 := Host.gather gather_S1000000x32_S4096x26x2x1_S4096x26x2x32_3_0_n_n_0_3_132 tab (startIdx ids)
  let v14 : IVec S4096x26x2x32 1 := broadcastInDim S4096x26x2x32 ![0, 1, 2] bcast_S4096x26x2_S4096x26x2x32_0_1_2 (inBounds ids)
  let cst : FVec F S_ .f32 := constant S_ .f32 0x7FC00000#32
  let v15 : FVec F S4096x26x2x32 .f32 := broadcastInDim S4096x26x2x32 ![] bcast_S_S4096x26x2x32 cst
  select v14 v13 v15

end Cert.ReferenceIdeal.RefTerm

end
-- ==== Proof.RefRun.lean ====
import proofs.«413815_j28827820491521_2_alg».proof.Proof.Gen.ReferenceIdeal
import proofs.«413815_j28827820491521_2_alg».proof.Proof.RefTerm
import Idealize.ShloMosaic.Lib.StableHlo.Run
import Idealize.ShloMosaic.Adequacy
import Idealize.ShloMosaic.Init

noncomputable section

namespace Cert.ReferenceIdeal.RefRun

open Idealize.ShloMosaic Idealize.ShloMosaic.TcCoe Idealize.SL.Sem Cert.ReferenceIdeal Cert.ReferenceIdeal.Gen

variable {F : FTy → Type} [FloatOps F]

private abbrev ops : List (HloOp τ sig (Elt F)) :=
  [ StableHlo.TRef.nullary main_call0.c (constantI S_ 32 0#32),
    StableHlo.TRef.unary main_call0.c main_call0.v0 (broadcastInDim S4096x26x2 ![] Facts₀.bcast_S_S4096x26x2),
    StableHlo.TRef.binary (.of main_arg0) main_call0.v0 main_call0.v1 (cmpi .slt),
    StableHlo.TRef.nullary main_call0.c_0 (constantI S_ 32 1000000#32),
    StableHlo.TRef.unary main_call0.c_0 main_call0.v2 (broadcastInDim S4096x26x2 ![] Facts₀.bcast_S_S4096x26x2),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S4096x26x2x1 ![0, 1, 2] Facts₀.bcast_S4096x26x2_S4096x26x2x1_0_1_2),
    StableHlo.TRef.nullary main_call0.c_1 (constantI S1 32 999999#32),
    StableHlo.TRef.nullary main_call0.c_2 (constantI S_ 32 0#32),
    StableHlo.TRef.unary main_call0.c_2 main_call0.v6 (broadcastInDim S4096x26x2x1 ![] Facts₀.bcast_S_S4096x26x2x1),
    StableHlo.TRef.binary main_call0.v5 main_call0.v6 main_call0.v7 (cmpi .sge),
    StableHlo.TRef.unary main_call0.c_1 main_call0.v8 (broadcastInDim S1x1x1x1 ![3] Facts₀.bcast_S1_S1x1x1x1_3),
    StableHlo.TRef.unary main_call0.v8 main_call0.v9 (broadcastInDim S4096x26x2x1 ![0, 1, 2, 3] Facts₀.bcast_S1x1x1x1_S4096x26x2x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v Facts₀.reducesTo_S4096x26x2x1_S4096x26x2_d3 Facts₀.h_S_),
    StableHlo.TRef.binary (.of main_arg1) main_call0.v5 main_call0.v13 (fun x i => Host.gather gather_S1000000x32_S4096x26x2x1_S4096x26x2x32_3_0_n_n_0_3_132 x i),
    StableHlo.TRef.unary main_call0.v12 main_call0.v14 (broadcastInDim S4096x26x2x32 ![0, 1, 2] Facts₀.bcast_S4096x26x2_S4096x26x2x32_0_1_2),
    StableHlo.TRef.nullary main_call0.cst (constant S_ .f32 0x7FC00000#32),
    StableHlo.TRef.unary main_call0.cst main_call0.v15 (broadcastInDim S4096x26x2x32 ![] Facts₀.bcast_S_S4096x26x2x32),
    StableHlo.TRef.ternary main_call0.v14 main_call0.v13 main_call0.v15 main_call0.v16 select ]

private theorem main_eq (c : Dev nD) : main (F := F) c = StableHlo.seq ops := by
  simp only [main, fn_take.body, fn_where.body, StableHlo.seq, bind_assoc, pure_bind]

private theorem scopedRefs_eq : (Finset.univ.filter fun b : Ref sig .tc => b.isScoped) = ∅ := by decide

private theorem scopedSems_eq : (Finset.univ.filter fun sm : SemLoc sig => sm.isScoped .tc) = ∅ := by decide

open Idealize.ShloMosaic.StableHlo in

private theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
open Idealize.ShloMosaic.StableHlo in
set_option maxRecDepth 8192 in
set_option maxHeartbeats 400000 in

private theorem out_eq (V : Valuation τ sig (Elt F)) :
    after ops V (main_v0 : DevRef τ sig)
      = Cert.ReferenceIdeal.RefTerm.refTerm (F := F) (V (main_arg1 : DevRef τ sig)) (V (main_arg0 : DevRef τ sig)) := by
  after_results_simp
  rfl

open Idealize.ShloMosaic.StableHlo in

private theorem arg0_eq (V : Valuation τ sig (Elt F)) :
    after ops V (main_arg0 : DevRef τ sig) = V (main_arg0 : DevRef τ sig) := by
  after_results_simp

open Idealize.ShloMosaic.StableHlo in

private theorem arg1_eq (V : Valuation τ sig (Elt F)) :
    after ops V (main_arg1 : DevRef τ sig) = V (main_arg1 : DevRef τ sig) := by
  after_results_simp

theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v0)
          = Cert.ReferenceIdeal.RefTerm.refTerm (F := F) (m ((c.tc : Thread nD τ).loc main_arg1)) (m ((c.tc : Thread nD τ).loc main_arg0))
      ∧ (r.2.mem ((c.tc : Thread nD τ).loc main_arg0) = m ((c.tc : Thread nD τ).loc main_arg0)
        ∧ r.2.mem ((c.tc : Thread nD τ).loc main_arg1) = m ((c.tc : Thread nD τ).loc main_arg1))) := by
  exact (θ_run defs _ _).mono
    (fun _ h c => ⟨(h c main_v0).trans (out_eq _), (h c main_arg0).trans (arg0_eq _), (h c main_arg1).trans (arg1_eq _)⟩)
    (StableHlo.run_seq scopedRefs_eq scopedSems_eq defs main (fun _ => ops) main_eq (fun _ => ops_sub) m ρ)

end Cert.ReferenceIdeal.RefRun

end
-- ==== Proof.RefValue.lean ====
import proofs.«413815_j28827820491521_2_alg».proof.Proof.Gen.ReferenceIdeal
import proofs.«413815_j28827820491521_2_alg».proof.Proof.RefTerm
import proofs.«413815_j28827820491521_2_alg».proof.Proof.Spec
import Idealize.ShloMosaic.Lib.ValueIdx
import Idealize.ShloMosaic.Lib.Pipeline.Value
import Idealize.ShloMosaic.Lib.StableHlo.Predicate
import Idealize.ShloMosaic.PureOps.Reduce

noncomputable section

namespace Cert.ReferenceIdeal.RefValue

open Idealize.ShloMosaic Idealize.ShloMosaic.ValueIdx Cert.ReferenceIdeal Cert.ReferenceIdeal.Gen

variable {F : FTy → Type} [FloatOps F]

section Gather
variable {α : Type}

private abbrev siOf (y : S4096x26x2x32.Idx) : S4096x26x2x1.Idx :=
  ix4 (n0 := 4096) (n1 := 26) (n2 := 2) (n3 := 1) ⟨(y 0).val, (y 0).isLt⟩ ⟨(y 1).val, (y 1).isLt⟩ ⟨(y 2).val, (y 2).isLt⟩
    ⟨0, Nat.one_pos⟩

private theorem gather_apply {w : Nat} (x : S1000000x32.Idx → α) (idx : IVec S4096x26x2x1 w) (y : S4096x26x2x32.Idx) :
    Host.gather gather_S1000000x32_S4096x26x2x1_S4096x26x2x32_3_0_n_n_0_3_132 x idx y
      = x (ix2 (n0 := 1000000) (n1 := 32) ⟨min (idx (siOf y)).toInt.toNat 999999, by omega⟩ ⟨(y 3).val, (y 3).isLt⟩) := by
  unfold Host.gather
  congr 1
  funext a
  refine Fin.ext ?_
  match a with
  | ⟨0, _⟩ =>
    show gather_S1000000x32_S4096x26x2x1_S4096x26x2x32_3_0_n_n_0_3_132.start y idx 0
        + gather_S1000000x32_S4096x26x2x1_S4096x26x2x32_3_0_n_n_0_3_132.batchCoord y 0
        + gather_S1000000x32_S4096x26x2x1_S4096x26x2x32_3_0_n_n_0_3_132.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x32_S4096x26x2x1_S4096x26x2x32_3_0_n_n_0_3_132.startIndexMap from
      List.mem_singleton.mpr rfl)]

    have hsi : gather_S1000000x32_S4096x26x2x1_S4096x26x2x32_3_0_n_n_0_3_132.siIdx y
        ⟨List.idxOf (0 : Fin 2) gather_S1000000x32_S4096x26x2x1_S4096x26x2x32_3_0_n_n_0_3_132.startIndexMap,
          List.idxOf_lt_length_iff.2 (List.mem_singleton.mpr rfl)⟩ = siOf y := by
      funext b; refine Fin.ext ?_
      match b with
      | ⟨0, _⟩ => rfl
      | ⟨1, _⟩ => rfl
      | ⟨2, _⟩ => rfl
      | ⟨3, _⟩ => rfl
    rw [hsi]

    rfl
  | ⟨1, _⟩ =>
    show gather_S1000000x32_S4096x26x2x1_S4096x26x2x32_3_0_n_n_0_3_132.start y idx 1
        + gather_S1000000x32_S4096x26x2x1_S4096x26x2x32_3_0_n_n_0_3_132.batchCoord y 1
        + gather_S1000000x32_S4096x26x2x1_S4096x26x2x32_3_0_n_n_0_3_132.offCoord y 1 = (y 3).val
    rw [GatherDims.batchCoord_eq_zero _ _ _ List.not_mem_nil]
    have hst : gather_S1000000x32_S4096x26x2x1_S4096x26x2x32_3_0_n_n_0_3_132.start y idx 1 = 0 := by
      unfold GatherDims.start
      rw [dif_neg (show (1 : Fin 2) ∉ gather_S1000000x32_S4096x26x2x1_S4096x26x2x32_3_0_n_n_0_3_132.startIndexMap from by
        decide)]
    have hmem : (1 : Fin 2) ∈ gather_S1000000x32_S4096x26x2x1_S4096x26x2x32_3_0_n_n_0_3_132.sKept :=
      (GatherDims.mem_sKept _ _).mpr ⟨by decide, List.not_mem_nil⟩
    rw [hst]
    unfold GatherDims.offCoord
    rw [dif_pos hmem]
    simp only [Nat.add_zero, Nat.zero_add]

    rfl

end Gather

section Words

private theorem slt_zero_of_lt (w : BitVec 32) (h : w.toNat < 1000000) : IntOp.cmpi .slt w 0#32 = 0#1 := by
  refine eq_zero_of_ne_one fun e => ?_
  have := (StableHlo.Predicate.slt_iff_toNat (a := w) (b := 0#32) (by omega) (by decide)).mp e
  exact absurd this (Nat.not_lt_zero _)

private theorem sge_zero_of_lt (w : BitVec 32) (h : w.toNat < 1000000) : IntOp.cmpi .sge w 0#32 = 1#1 :=
  (StableHlo.Predicate.sge_iff_toNat (a := w) (b := 0#32) (by omega) (by decide)).mpr (Nat.zero_le _)

private theorem sle_last_of_lt (w : BitVec 32) (h : w.toNat < 1000000) : IntOp.cmpi .sle w 999999#32 = 1#1 :=
  (StableHlo.Predicate.sle_iff_toNat (a := w) (b := 999999#32) (by omega) (by decide)).mpr
    (by show w.toNat ≤ 999999; omega)

private theorem clamp_of_lt (w : BitVec 32) (h : w.toNat < 1000000) : min w.toInt.toNat 999999 = w.toNat := by
  rw [StableHlo.Predicate.toInt_eq_toNat_of_lt (a := w) (by omega), Int.toNat_natCast]
  omega

end Words

section Reduce

private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

end Reduce

section Term

private theorem shifted_apply (ids : IVec S4096x26x2 32) (h : Cert.Spec.InRange ids) (i : S4096x26x2.Idx) :
    RefTerm.shifted ids i = ids i := by
  show Scalar.select (IntOp.cmpi .slt (ids i) 0#32) (IntOp.addi (ids i) 1000000#32) (ids i) = ids i
  rw [slt_zero_of_lt _ (h i), select_zero]

private theorem startIdx_apply (ids : IVec S4096x26x2 32) (h : Cert.Spec.InRange ids) (k : S4096x26x2x1.Idx) :
    RefTerm.startIdx ids k
      = ids (ix3 (n0 := 4096) (n1 := 26) (n2 := 2) ⟨(k 0).val, (k 0).isLt⟩ ⟨(k 1).val, (k 1).isLt⟩ ⟨(k 2).val, (k 2).isLt⟩) := by
  unfold RefTerm.startIdx
  rw [broadcastInDim_apply _ _ _ k
    (ix3 (n0 := 4096) (n1 := 26) (n2 := 2) ⟨(k 0).val, (k 0).isLt⟩ ⟨(k 1).val, (k 1).isLt⟩ ⟨(k 2).val, (k 2).isLt⟩)
    (fun a => match a with | ⟨0, _⟩ => rfl | ⟨1, _⟩ => rfl | ⟨2, _⟩ => rfl)]
  exact shifted_apply ids h _

private theorem inBounds_apply (ids : IVec S4096x26x2 32) (h : Cert.Spec.InRange ids) (j : S4096x26x2.Idx) :
    RefTerm.inBounds ids j = 1#1 := by
  unfold RefTerm.inBounds
  refine reduce_andi_ones _ _ _ _ (fun k => ?_) (fun _ => rfl) j
  show IntOp.andi (IntOp.cmpi .sge (RefTerm.startIdx ids k) 0#32) (IntOp.cmpi .sle (RefTerm.startIdx ids k) 999999#32) = 1#1
  rw [startIdx_apply ids h k, sge_zero_of_lt _ (h _), sle_last_of_lt _ (h _)]
  decide

end Term

theorem refTerm_eq_rows (tab : FVec F S1000000x32 .f32) (ids : IVec S4096x26x2 32) (h : Cert.Spec.InRange ids) :
    Cert.ReferenceIdeal.RefTerm.refTerm (F := F) tab ids = Cert.Spec.rows ids tab := by
  funext y
  have hib : RefTerm.inBounds ids = fun _ => 1#1 := funext (inBounds_apply ids h)
  unfold RefTerm.refTerm
  simp only [select_apply, hib, broadcastInDim, select_one]
  rw [gather_apply]
  unfold Cert.Spec.rows
  congr 1
  funext a
  match a with
  | ⟨0, _⟩ =>
    refine Fin.ext ?_
    show min (RefTerm.startIdx ids (siOf y)).toInt.toNat 999999 = (Cert.Spec.rowOf (ids (Cert.Spec.idOf y))).val
    rw [startIdx_apply ids h]
    show min (ids (Cert.Spec.idOf y)).toInt.toNat 999999 = _
    rw [clamp_of_lt _ (h _), Cert.Spec.rowOf_val_of_lt _ (h _)]
  | ⟨1, _⟩ => rfl

end Cert.ReferenceIdeal.RefValue

end
-- ==== Proof.PreDecode.lean ====
import proofs.«413815_j28827820491521_2_alg».proof.Proof.Gen.Pre_finite_inputs
import proofs.«413815_j28827820491521_2_alg».proof.Proof.Spec
import Idealize.ShloMosaic.Lib.ReduceAll
import Idealize.ShloMosaic.Lib.StableHlo.Predicate

noncomputable section

namespace Cert.PreDecode

open Idealize.ShloMosaic Cert.Pre_finite_inputs Cert.Pre_finite_inputs.Gen

variable {F : FTy → Type} [FloatOps F]

private instance : Subsingleton S_.Idx := ⟨fun a b => funext fun d => d.elim0⟩

private theorem toNat_lt_of_signed_bounds (w : BitVec 32) (h0 : (0#32 : BitVec 32).toInt ≤ w.toInt)
    (h1 : w.toInt < (1000000#32 : BitVec 32).toInt) : w.toNat < 1000000 := by
  have e0 : (0#32 : BitVec 32).toInt = 0 := by decide
  have e1 : (1000000#32 : BitVec 32).toInt = 1000000 := by decide
  rw [e0] at h0
  rw [e1] at h1
  have hc := BitVec.toInt_eq_toNat_cond w
  split at hc <;> omega

theorem inRange_of_pre (ids : IVec S4096x26x2 32) (tab : FVec F S1000000x32 .f32)
    (h : Cert.Pre_finite_inputs.fn (F := F) ids tab = fun _ => 1#1) : Cert.Spec.InRange ids := by

  have h0 := congrFun h ValueIdx.ix0
  dsimp only [Cert.Pre_finite_inputs.fn, andi] at h0
  obtain ⟨h12, h3⟩ := IntOp.andi_eq_one.1 h0
  obtain ⟨_, h2⟩ := IntOp.andi_eq_one.1 h12
  intro i

  have hge : IntOp.cmpi .sge (ids i) 0#32 = 1#1 := Host.reduce_andi_all _ _ _ _ _ h2 i
  have hlt : IntOp.cmpi .slt (ids i) 1000000#32 = 1#1 := Host.reduce_andi_all _ _ _ _ _ h3 i

  exact toNat_lt_of_signed_bounds (ids i) (IntOp.cmpi_sge.1 hge) (IntOp.cmpi_slt.1 hlt)

end Cert.PreDecode

end
-- ==== Proof.lean ====
import proofs.«413815_j28827820491521_2_alg».proof.Defs
import proofs.«413815_j28827820491521_2_alg».proof.Proof.Gen.Kernel
import proofs.«413815_j28827820491521_2_alg».proof.Proof.Gen.KernelIdeal
import proofs.«413815_j28827820491521_2_alg».proof.Proof.Gen.ReferenceIdeal
import proofs.«413815_j28827820491521_2_alg».proof.Proof.Gen.Pre_finite_inputs
import proofs.«413815_j28827820491521_2_alg».proof.Proof.K.Frame
import proofs.«413815_j28827820491521_2_alg».proof.Proof.KI.Frame
import proofs.«413815_j28827820491521_2_alg».proof.Proof.KI.RunValue
import proofs.«413815_j28827820491521_2_alg».proof.Proof.KI.Value
import proofs.«413815_j28827820491521_2_alg».proof.Proof.RefRun
import proofs.«413815_j28827820491521_2_alg».proof.Proof.RefValue
import proofs.«413815_j28827820491521_2_alg».proof.Proof.PreDecode
import Idealize.ShloMosaic.Adequacy
import Idealize.ShloMosaic.Init

noncomputable section

namespace Cert.Proof

open Idealize.ShloMosaic Idealize.SL.Sem

theorem frame_k : Cert.frame_Kernel := fun m g hpre =>
  Cert.Kernel.Hand.frame m g (fun c => Cert.PreDecode.inRange_of_pre _ _ (hpre c))

theorem frame_ki : Cert.frame_KernelIdeal := fun m g hpre =>
  Cert.KernelIdeal.Hand.frame m g (fun c => Cert.PreDecode.inRange_of_pre _ _ (hpre c))

theorem frame_ri : Cert.frame_ReferenceIdeal := fun m g _ =>
  (θ_run Cert.ReferenceIdeal.defs _ _).mono (fun _ h c => (h c).2) (Cert.ReferenceIdeal.RefRun.run (F := Ideal) m g)

theorem algebraic : Cert.algebraic_KernelIdeal_ReferenceIdeal := by
  intro m g m' g' hpre hagree
  have hin : Cert.KernelIdeal.Hand.HIn m := fun c => Cert.PreDecode.inRange_of_pre _ _ (hpre c)
  refine ⟨fun c => Cert.Spec.rows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m hin c), (h c).2.1, (h c).2.2⟩)
      (Cert.KernelIdeal.Hand.run (F := Ideal) m g hin)
  · refine (θ_run Cert.ReferenceIdeal.defs _ _).mono (fun _ h c => ⟨(h c).1.trans ?_, (h c).2⟩)
      (Cert.ReferenceIdeal.RefRun.run (F := Ideal) m' g')
    rw [(hagree c).1, (hagree c).2]
    exact Cert.ReferenceIdeal.RefValue.refTerm_eq_rows _ _ (hin c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
